-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x16x2048x128 : Shape := ⟨4, ![2, 16, 2048, 128]⟩
abbrev S2048x2048 : Shape := ⟨2, ![2048, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S2048x2048 .f32) (main_arg10 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x2048 .f32) (main_arg1 : FVec F S2x16x2048x128 .f32) (main_arg2 : FVec F S2x16x2048x128 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S2x2048x2048 : Shape := ⟨3, ![2, 2048, 2048]⟩
abbrev S2x16x2048x128 : Shape := ⟨4, ![2, 16, 2048, 128]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S2x2048x16x128 : Shape := ⟨4, ![2, 2048, 16, 128]⟩
abbrev S2x16x4096x128 : Shape := ⟨4, ![2, 16, 4096, 128]⟩
abbrev S2048x128 : Shape := ⟨2, ![2048, 128]⟩
abbrev S1x1x1024x128 : Shape := ⟨4, ![1, 1, 1024, 128]⟩
abbrev S2048x1 : Shape := ⟨2, ![2048, 1]⟩
abbrev S1024x128 : Shape := ⟨2, ![1024, 128]⟩
abbrev S2048x1024 : Shape := ⟨2, ![2048, 1024]⟩

abbrev nBuf : Space → Nat
  | .hbm => 33
  | .vmem => 35
  | .smem => 0
  | _ => 0

abbrev bufTy : (tb : Table) → Fin (tcTables nBuf tb) → BufTy
  | .hbm, ⟨0, _⟩ => ⟨S2x2048x2048, .f32⟩
  | .hbm, ⟨1, _⟩ => ⟨S2x16x2048x128, .f32⟩
  | .hbm, ⟨2, _⟩ => ⟨S2x16x2048x128, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S4096x2048, .f32⟩
  | .hbm, ⟨12, _⟩ => ⟨S4096x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S4096x2048, .bf16⟩
  | .hbm, ⟨19, _⟩ => ⟨S1x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S2x2048x16x128, .f32⟩
  | .hbm, ⟨24, _⟩ => ⟨S2x16x2048x128, .f32⟩
  | .hbm, ⟨25, _⟩ => ⟨S2x2048x16x128, .f32⟩
  | .hbm, ⟨26, _⟩ => ⟨S2x16x2048x128, .f32⟩
  | .hbm, ⟨27, _⟩ => ⟨S2x16x4096x128, .f32⟩
  | .hbm, ⟨28, _⟩ => ⟨S2x16x4096x128, .f32⟩
  | .hbm, ⟨29, _⟩ => ⟨S4096x2048, .bf16⟩
  | .hbm, ⟨30, _⟩ => ⟨S1x2048, .f32⟩
  | .hbm, ⟨31, _⟩ => ⟨S4096x2048, .f32⟩
  | .hbm, ⟨32, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S2048x128, .bf16⟩
  | .local _ .vmem, ⟨19, _⟩ => ⟨S2048x128, .bf16⟩
  | .local _ .vmem, ⟨20, _⟩ => ⟨S1x1x1024x128, .f32⟩
  | .local _ .vmem, ⟨21, _⟩ => ⟨S1x1x1024x128, .f32⟩
  | .local _ .vmem, ⟨22, _⟩ => ⟨S1x1x1024x128, .f32⟩
  | .local _ .vmem, ⟨23, _⟩ => ⟨S1x1x1024x128, .f32⟩
  | .local _ .vmem, ⟨24, _⟩ => ⟨S2048x128, .bf16⟩
  | .local _ .vmem, ⟨25, _⟩ => ⟨S2048x128, .bf16⟩
  | .local _ .vmem, ⟨26, _⟩ => ⟨S2048x1, .f32⟩
  | .local _ .vmem, ⟨27, _⟩ => ⟨S2048x1, .f32⟩
  | .local _ .vmem, ⟨28, _⟩ => ⟨S2048x128, .f32⟩
  | .local _ .vmem, ⟨29, _⟩ => ⟨S512x2048, .bf16⟩
  | .local _ .vmem, ⟨30, _⟩ => ⟨S512x2048, .bf16⟩
  | .local _ .vmem, ⟨31, _⟩ => ⟨S2048x2048, .bf16⟩
  | .local _ .vmem, ⟨32, _⟩ => ⟨S1x2048, .f32⟩
  | .local _ .vmem, ⟨33, _⟩ => ⟨S512x2048, .f32⟩
  | .local _ .vmem, ⟨34, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 16, 4], ![false, false, false]⟩

def k3_cond2 (i : grid3.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_28 : BitVec 32 := 0#32
  let v46 : BitVec 1 := Scalar.cmpi .ne v45 c0_i32_28
  v46

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x1x1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x1x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x2048_S4096x2048 : S2x2048x2048.ShapeCasts S4096x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  shapeCasts_S4096x2048_S2x2048x16x128 : S4096x2048.ShapeCasts S2x2048x16x128
  transposes_S2x2048x16x128_S2x16x2048x128_0_2_1_3 : S2x2048x16x128.Transposes [0, 2, 1, 3] S2x16x2048x128
  concatenates_S2x16x2048x128_S2x16x2048x128_S2x16x4096x128_d2 : Shape.Concatenates [S2x16x2048x128, S2x16x2048x128] S2x16x4096x128 2
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  shapeCasts_S4096x2048_S2x2048x2048 : S4096x2048.ShapeCasts S2x2048x2048
  dot_S512x2048_S2048x2048_S512x2048_1_1_0_0_n_n_wf : DotDims.WF S512x2048 S2048x2048 S512x2048 [1] [1] [0] [0] [] []
  dot_S2048x128_S1024x128_S2048x1024_1_1_0_0_n_n_wf : DotDims.WF S2048x128 S1024x128 S2048x1024 [1] [1] [0] [0] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .f32 = 32 ∨ (Rect.block (s := S4096x2048) S512x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S4096x2048.size a
  hwx3_0 : ∀ i : grid3.Coords, EltTy.bits .bf16 = 32 ∨ (Rect.block (s := S4096x2048) S2048x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x1024x128.size a ≤ S2x16x4096x128.size a
  hwx3_1 : ∀ i : grid3.Coords, EltTy.bits .f32 = 32 ∨ (Rect.block (s := S2x16x4096x128) S1x1x1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1024x128.size a ≤ S2x16x4096x128.size a
  hwx3_2 : ∀ i : grid3.Coords, EltTy.bits .f32 = 32 ∨ (Rect.block (s := S2x16x4096x128) S1x1x1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S4096x2048.size a
  hwx3_3 : ∀ i : grid3.Coords, EltTy.bits .bf16 = 32 ∨ (Rect.block (s := S4096x2048) S2048x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S4096x2048.size a
  hwx4_0 : ∀ i : grid4.Coords, EltTy.bits .bf16 = 32 ∨ (Rect.block (s := S4096x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S4096x2048.size a
  hwx4_3 : ∀ i : grid4.Coords, EltTy.bits .f32 = 32 ∨ (Rect.block (s := S4096x2048) S512x2048.size (cc4_transform_3 i) (hinb4_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x1x1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x1x1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v18) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x2048 : Shape := ⟨3, ![2, 2048, 2048]⟩
abbrev S2x16x2048x128 : Shape := ⟨4, ![2, 16, 2048, 128]⟩
abbrev S2048x2048 : Shape := ⟨2, ![2048, 2048]⟩
abbrev S2048 : Shape := ⟨1, ![2048]⟩
abbrev S1x1x2048 : Shape := ⟨3, ![1, 1, 2048]⟩
abbrev S2x2048x16x128 : Shape := ⟨4, ![2, 2048, 16, 128]⟩
abbrev S2x16x4096x128 : Shape := ⟨4, ![2, 16, 4096, 128]⟩
abbrev S2x16x2048x4096 : Shape := ⟨4, ![2, 16, 2048, 4096]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x16x2048x128, .f32⟩
  | .hbm, ⟨2, _⟩ => ⟨S2x16x2048x128, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2x2048x2048, .f32⟩
  | .hbm, ⟨12, _⟩ => ⟨S1x1x2048, .f32⟩
  | .hbm, ⟨13, _⟩ => ⟨S2x2048x2048, .f32⟩
  | .hbm, ⟨14, _⟩ => ⟨S2x2048x2048, .f32⟩
  | .hbm, ⟨15, _⟩ => ⟨S2x2048x16x128, .f32⟩
  | .hbm, ⟨16, _⟩ => ⟨S2x16x2048x128, .f32⟩
  | .hbm, ⟨17, _⟩ => ⟨S2x2048x2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S2x2048x16x128, .f32⟩
  | .hbm, ⟨22, _⟩ => ⟨S2x16x2048x128, .f32⟩
  | .hbm, ⟨23, _⟩ => ⟨S2x16x4096x128, .f32⟩
  | .hbm, ⟨24, _⟩ => ⟨S2x2048x2048, .f32⟩
  | .hbm, ⟨25, _⟩ => ⟨S1x1x2048, .f32⟩
  | .hbm, ⟨26, _⟩ => ⟨S2x2048x2048, .f32⟩
  | .hbm, ⟨27, _⟩ => ⟨S2x2048x2048, .f32⟩
  | .hbm, ⟨28, _⟩ => ⟨S2x2048x16x128, .f32⟩
  | .hbm, ⟨29, _⟩ => ⟨S2x16x2048x128, .f32⟩
  | .hbm, ⟨30, _⟩ => ⟨S2x16x4096x128, .f32⟩
  | .hbm, ⟨31, _⟩ => ⟨S2x16x2048x4096, .f32⟩
  | .hbm, ⟨32, _⟩ => ⟨S_, .f32⟩
  | .hbm, ⟨33, _⟩ => ⟨S2x16x2048x4096, .f32⟩
  | .hbm, ⟨34, _⟩ => ⟨S2x16x2048x4096, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x4096, .f32⟩
  | .hbm, ⟨42, _⟩ => ⟨S2x16x2048x4096, .f32⟩
  | .hbm, ⟨43, _⟩ => ⟨S2x16x2048x4096, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x4096, .f32⟩
  | .hbm, ⟨48, _⟩ => ⟨S2x16x2048x4096, .f32⟩
  | .hbm, ⟨49, _⟩ => ⟨S2x16x2048x128, .f32⟩
  | .hbm, ⟨50, _⟩ => ⟨S2x2048x16x128, .f32⟩
  | .hbm, ⟨51, _⟩ => ⟨S2x2048x2048, .f32⟩
  | .hbm, ⟨52, _⟩ => ⟨S2x2048x2048, .f32⟩
  | .hbm, ⟨53, _⟩ => ⟨S1x1x2048, .f32⟩
  | .hbm, ⟨54, _⟩ => ⟨S2x2048x2048, .f32⟩
  | .hbm, ⟨55, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  concatenates_S2x16x2048x128_S2x16x2048x128_S2x16x4096x128_d2 : Shape.Concatenates [S2x16x2048x128, S2x16x2048x128] S2x16x4096x128 2
  bcast_S_S2x16x2048x4096 : S_.BroadcastsInDim S2x16x2048x4096 (![] : Fin 0 → Fin S2x16x2048x4096.rank)
  reducesTo_S2x16x2048x4096_S2x16x2048_d3 : S2x16x2048x4096.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x4096_0_1_2_3 : S2x16x2048x1.BroadcastsInDim S2x16x2048x4096 (![0, 1, 2, 3] : Fin 4 → Fin S2x16x2048x4096.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_1_01_0_n_n_wf : DotDims.WF S2x2048x2048 S2048x2048 S2x2048x2048 [2] [1] [0, 1] [0] [] []
  dot_S2x16x2048x128_S2x16x4096x128_S2x16x2048x4096_3_3_2_2_01_01_wf : DotDims.WF S2x16x2048x128 S2x16x4096x128 S2x16x2048x4096 [3] [3] [2] [2] [0, 1] [0, 1]
  dot_S2x16x2048x4096_S2x16x4096x128_S2x16x2048x128_3_2_2_3_01_01_wf : DotDims.WF S2x16x2048x4096 S2x16x4096x128 S2x16x2048x128 [3] [2] [2] [3] [0, 1] [0, 1]

variable [Facts₀]

def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf
def dot_S2x16x2048x128_S2x16x4096x128_S2x16x2048x4096_3_3_2_2_01_01 : DotDims S2x16x2048x128 S2x16x4096x128 S2x16x2048x4096 where
  lhsContracting := [3]
  rhsContracting := [3]
  lhsNonContracting := [2]
  rhsNonContracting := [2]
  lhsBatch := [0, 1]
  rhsBatch := [0, 1]
  wf := dot_S2x16x2048x128_S2x16x4096x128_S2x16x2048x4096_3_3_2_2_01_01_wf
def dot_S2x16x2048x4096_S2x16x4096x128_S2x16x2048x128_3_2_2_3_01_01 : DotDims S2x16x2048x4096 S2x16x4096x128 S2x16x2048x128 where
  lhsContracting := [3]
  rhsContracting := [2]
  lhsNonContracting := [2]
  rhsNonContracting := [3]
  lhsBatch := [0, 1]
  rhsBatch := [0, 1]
  wf := dot_S2x16x2048x4096_S2x16x4096x128_S2x16x2048x128_3_2_2_3_01_01_wf

class Facts : Prop extends Facts₀ where

variable [Facts]
-- ==== Proof.K.LinBody.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

section
variable {e : EltTy} (pay : Vec F S512x2048 .bf16 → Vec F S2048x2048 .bf16 → Vec F S1x2048 .f32 → Vec F S512x2048 e)

def outLin (x0 : Vec F S512x2048 .bf16) (x1 : Vec F S2048x2048 .bf16) (x2 : Vec F S1x2048 .f32) : Vec F S512x2048 e :=
  View.canon [⟨rX, pay (View.ld x0 rX) (View.ld x1 rW) (View.ld x2 rB)⟩]

def linBody (arg1 : Memref sig .tc .vmem S512x2048 .bf16) (arg2 : Memref sig .tc .vmem S2048x2048 .bf16) (arg3 : Memref sig .tc .vmem S1x2048 .f32)
    (arg4 : Memref sig .tc .vmem S512x2048 e) (hst : (arg4.access rX).Stores Finset.univ) : Prog (TpuEff nD τ sig (Elt F) Λ₀ .tc) PUnit := do
  let v0 : Vec F S512x2048 .bf16 ← Prog.lift (.load arg1 rX.toLoadRect (View.loadsAt_vmem h_S512x2048))
  let v2 : Vec F S2048x2048 .bf16 ← Prog.lift (.load arg2 rW.toLoadRect (View.loadsAt_vmem h_S2048x2048))
  let v5 : Vec F S1x2048 .f32 ← Prog.lift (.load arg3 rB.toLoadRect (View.loadsAt_vmem h_S1x2048))
  let _ : Vec F S512x2048 e ← Prog.lift (.load arg4 rX.toLoadRect (View.loadsAt_vmem h_S512x2048))
  Prog.lift (.store arg4 rX (pay v0 v2 v5) Finset.univ hst (.inl rfl))
  pure ⟨⟩

theorem sound_linBody (c : Dev nD) (E : Set ℕ) (arg1 : Memref sig .tc .vmem S512x2048 .bf16) (arg2 : Memref sig .tc .vmem S2048x2048 .bf16) (arg3 : Memref sig .tc .vmem S1x2048 .f32)
    (arg4 : Memref sig .tc .vmem S512x2048 e) (hst : (arg4.access rX).Stores Finset.univ)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outLin pay x0 x1 x2)) -∗ K ⟨⟩))
      ⊢ wp frame (wpE (defs₀ (F := F)) Variants.none c none) E (linBody pay arg1 arg2 arg3 arg4 hst) K := by
  unfold linBody owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rX, _⟩] S512x2048.size (by rfl))

end

end Cert.Kernel.Hand

end
-- ==== Proof.K.Lin0.lean ====
import proofs.«418154_j20864951124059_3_alg».proof.Proof.K.LinBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outR0 (x0 : Vec F S512x2048 .bf16) (x1 : Vec F S2048x2048 .bf16) (x2 : Vec F S1x2048 .f32) : Vec F S512x2048 .bf16 :=
  outLin k0_pay1 x0 x1 x2

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => outR0 (iblkR0 V c 0 t) (iblkR0 V c 1 t) (iblkR0 V c 2 t)
  Φ _ := Pipeline.ΦA spec0 c
  q _ := fullShare
  owed _ := 0

theorem A_eqR0 (c : Dev nD) (w : Fin cfg0.W) : (datR0 V c).A w = V c (Pipeline.arrRef spec0 w) := rfl

theorem afterR0_3 (c : Dev nD) (t : Fin cfg0.N) : (datR0 V c).after 3 t = outR0 (iblkR0 V c 0 t) (iblkR0 V c 1 t) (iblkR0 V c 2 t) := by dsimp only [datR0]

theorem beforeR0 (c : Dev nD) (t : Fin cfg0.N) : (∀ d, (datR0 V c).before 0 t d = iblkR0 V c 0 t) ∧ (∀ d, (datR0 V c).before 1 t d = iblkR0 V c 1 t) ∧ (∀ d, (datR0 V c).before 2 t d = iblkR0 V c 2 t) := by
  refine ⟨fun d => ?_, fun d => ?_, fun d => ?_⟩ <;> exact ((datR0 V c).before_in_eq_fetched _ rfl (fun _ => rfl) (fun _ _ _ => rfl) (fun _ => rfl) t d).trans rfl

theorem kernelR0_eq (t : Fin cfg0.N) : ∃ hst, bodyAt0 (F := F) t = linBody k0_pay1 (st0_0 t) (st0_1 t) (st0_2 t) (st0_3 t) hst :=
  ⟨_, by unfold bodyAt0; rw [cc0__linear_kernel_eq_skeleton]; rfl⟩

theorem body_obligationR0 (c : Dev nD) : BodyObligation (datR0 (F := F) V c) (defs₀ (F := F)) Variants.none () Set.univ := fun t => by
  rw [bigSep_W0, bigSep_W0]
  simp only [(beforeR0 V c t).1, (beforeR0 V c t).2.1, (beforeR0 V c t).2.2]
  show _ ⊢ wp frame (wpE (defs₀ (F := F)) Variants.none c none) Set.univ (bodyAt0 t) _
  obtain ⟨hst, hk⟩ := kernelR0_eq (F := F) t
  rw [hk, show (datR0 V c).owesAt () t.succ = (datR0 V c).owesAt () t.castSucc from rfl]
  dsimp only [datR0, outR0]
  iintro ⟨HΦ, Ho, ⟨%d0, H0⟩, ⟨%d1, H1⟩, ⟨%d2, H2⟩, ⟨%d3, H3⟩⟩
  iapply (sound_linBody k0_pay1 c Set.univ _ _ _ _ hst (iblkR0 V c 0 t) (iblkR0 V c 1 t) (iblkR0 V c 2 t) _)
  iframe H0 H1 H2
  isplitl [H3]; · iexists _; iexact H3
  iintro ⟨H0, H1, H2, H3⟩
  iframe

end

end Cert.Kernel.Hand

end
-- ==== Proof.K.Lin1.lean ====
import proofs.«418154_j20864951124059_3_alg».proof.Proof.K.LinBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outR1 (x0 : Vec F S512x2048 .bf16) (x1 : Vec F S2048x2048 .bf16) (x2 : Vec F S1x2048 .f32) : Vec F S512x2048 .f32 :=
  outLin k1_pay1 x0 x1 x2

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => outR1 (iblkR1 V c 0 t) (iblkR1 V c 1 t) (iblkR1 V c 2 t)
  Φ _ := Pipeline.ΦA spec1 c
  q _ := fullShare
  owed _ := 0

theorem A_eqR1 (c : Dev nD) (w : Fin cfg1.W) : (datR1 V c).A w = V c (Pipeline.arrRef spec1 w) := rfl

theorem afterR1_3 (c : Dev nD) (t : Fin cfg1.N) : (datR1 V c).after 3 t = outR1 (iblkR1 V c 0 t) (iblkR1 V c 1 t) (iblkR1 V c 2 t) := by dsimp only [datR1]

theorem beforeR1 (c : Dev nD) (t : Fin cfg1.N) : (∀ d, (datR1 V c).before 0 t d = iblkR1 V c 0 t) ∧ (∀ d, (datR1 V c).before 1 t d = iblkR1 V c 1 t) ∧ (∀ d, (datR1 V c).before 2 t d = iblkR1 V c 2 t) := by
  refine ⟨fun d => ?_, fun d => ?_, fun d => ?_⟩ <;> exact ((datR1 V c).before_in_eq_fetched _ rfl (fun _ => rfl) (fun _ _ _ => rfl) (fun _ => rfl) t d).trans rfl

theorem kernelR1_eq (t : Fin cfg1.N) : ∃ hst, bodyAt1 (F := F) t = linBody k1_pay1 (st1_0 t) (st1_1 t) (st1_2 t) (st1_3 t) hst :=
  ⟨_, by unfold bodyAt1; rw [cc1__linear_kernel_eq_skeleton]; rfl⟩

theorem body_obligationR1 (c : Dev nD) : BodyObligation (datR1 (F := F) V c) (defs₀ (F := F)) Variants.none () Set.univ := fun t => by
  rw [bigSep_W1, bigSep_W1]
  simp only [(beforeR1 V c t).1, (beforeR1 V c t).2.1, (beforeR1 V c t).2.2]
  show _ ⊢ wp frame (wpE (defs₀ (F := F)) Variants.none c none) Set.univ (bodyAt1 t) _
  obtain ⟨hst, hk⟩ := kernelR1_eq (F := F) t
  rw [hk, show (datR1 V c).owesAt () t.succ = (datR1 V c).owesAt () t.castSucc from rfl]
  dsimp only [datR1, outR1]
  iintro ⟨HΦ, Ho, ⟨%d0, H0⟩, ⟨%d1, H1⟩, ⟨%d2, H2⟩, ⟨%d3, H3⟩⟩
  iapply (sound_linBody k1_pay1 c Set.univ _ _ _ _ hst (iblkR1 V c 0 t) (iblkR1 V c 1 t) (iblkR1 V c 2 t) _)
  iframe H0 H1 H2
  isplitl [H3]; · iexists _; iexact H3
  iintro ⟨H0, H1, H2, H3⟩
  iframe

end

end Cert.Kernel.Hand

end
-- ==== Proof.K.Lin2.lean ====
import proofs.«418154_j20864951124059_3_alg».proof.Proof.K.LinBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outR2 (x0 : Vec F S512x2048 .bf16) (x1 : Vec F S2048x2048 .bf16) (x2 : Vec F S1x2048 .f32) : Vec F S512x2048 .f32 :=
  outLin k2_pay1 x0 x1 x2

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => outR2 (iblkR2 V c 0 t) (iblkR2 V c 1 t) (iblkR2 V c 2 t)
  Φ _ := Pipeline.ΦA spec2 c
  q _ := fullShare
  owed _ := 0

theorem A_eqR2 (c : Dev nD) (w : Fin cfg2.W) : (datR2 V c).A w = V c (Pipeline.arrRef spec2 w) := rfl

theorem afterR2_3 (c : Dev nD) (t : Fin cfg2.N) : (datR2 V c).after 3 t = outR2 (iblkR2 V c 0 t) (iblkR2 V c 1 t) (iblkR2 V c 2 t) := by dsimp only [datR2]

theorem beforeR2 (c : Dev nD) (t : Fin cfg2.N) : (∀ d, (datR2 V c).before 0 t d = iblkR2 V c 0 t) ∧ (∀ d, (datR2 V c).before 1 t d = iblkR2 V c 1 t) ∧ (∀ d, (datR2 V c).before 2 t d = iblkR2 V c 2 t) := by
  refine ⟨fun d => ?_, fun d => ?_, fun d => ?_⟩ <;> exact ((datR2 V c).before_in_eq_fetched _ rfl (fun _ => rfl) (fun _ _ _ => rfl) (fun _ => rfl) t d).trans rfl

theorem kernelR2_eq (t : Fin cfg2.N) : ∃ hst, bodyAt2 (F := F) t = linBody k2_pay1 (st2_0 t) (st2_1 t) (st2_2 t) (st2_3 t) hst :=
  ⟨_, by unfold bodyAt2; rw [cc2__linear_kernel_eq_skeleton]; rfl⟩

theorem body_obligationR2 (c : Dev nD) : BodyObligation (datR2 (F := F) V c) (defs₀ (F := F)) Variants.none () Set.univ := fun t => by
  rw [bigSep_W2, bigSep_W2]
  simp only [(beforeR2 V c t).1, (beforeR2 V c t).2.1, (beforeR2 V c t).2.2]
  show _ ⊢ wp frame (wpE (defs₀ (F := F)) Variants.none c none) Set.univ (bodyAt2 t) _
  obtain ⟨hst, hk⟩ := kernelR2_eq (F := F) t
  rw [hk, show (datR2 V c).owesAt () t.succ = (datR2 V c).owesAt () t.castSucc from rfl]
  dsimp only [datR2, outR2]
  iintro ⟨HΦ, Ho, ⟨%d0, H0⟩, ⟨%d1, H1⟩, ⟨%d2, H2⟩, ⟨%d3, H3⟩⟩
  iapply (sound_linBody k2_pay1 c Set.univ _ _ _ _ hst (iblkR2 V c 0 t) (iblkR2 V c 1 t) (iblkR2 V c 2 t) _)
  iframe H0 H1 H2
  isplitl [H3]; · iexists _; iexact H3
  iintro ⟨H0, H1, H2, H3⟩
  iframe

end

end Cert.Kernel.Hand

end
-- ==== Proof.K.FoldA.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import proofs.«418154_j20864951124059_3_alg».proof.Proof.K.Lin0
import proofs.«418154_j20864951124059_3_alg».proof.Proof.K.Lin1
import proofs.«418154_j20864951124059_3_alg».proof.Proof.K.Lin2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- what every array holds at each boundary between the program's items, up to the attention region

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev U0 : Dev nD → Valuation τ sig (Elt F) := fun c b => m (c, b)

abbrev U1 : Dev nD → Valuation τ sig (Elt F) := fun c => StableHlo.after hostOps0 (U0 m c)
abbrev E1 : (c : Dev nD) → (b : Ref sig .tc) → Buf (Elt F) ((c : Thread nD τ).loc b) := fun c b => U1 m c b

def U2 (c : Dev nD) : Valuation τ sig (Elt F) :=
  Pipeline.withArrays spec0 c (U1 m c) fun w => (datR0 (E1 m) c).arrAt w cfg0.N
theorem U2_arr (c : Dev nD) (w : Fin cfg0.W) :
    U2 m c (Proc.devRef .tc (Pipeline.arrRef spec0 w)) = (datR0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b

abbrev U3 : Dev nD → Valuation τ sig (Elt F) := fun c => StableHlo.after hostOps1 (U2 m c)
abbrev E3 : (c : Dev nD) → (b : Ref sig .tc) → Buf (Elt F) ((c : Thread nD τ).loc b) := fun c b => U3 m c b

def U4 (c : Dev nD) : Valuation τ sig (Elt F) :=
  Pipeline.withArrays spec1 c (U3 m c) fun w => (datR1 (E3 m) c).arrAt w cfg1.N
theorem U4_arr (c : Dev nD) (w : Fin cfg1.W) :
    U4 m c (Proc.devRef .tc (Pipeline.arrRef spec1 w)) = (datR1 (E3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev E4 : (c : Dev nD) → (b : Ref sig .tc) → Buf (Elt F) ((c : Thread nD τ).loc b) := fun c b => U4 m c b

abbrev U5 : Dev nD → Valuation τ sig (Elt F) := fun c => StableHlo.after hostOps2 (U4 m c)
abbrev E5 : (c : Dev nD) → (b : Ref sig .tc) → Buf (Elt F) ((c : Thread nD τ).loc b) := fun c b => U5 m c b

def U6 (c : Dev nD) : Valuation τ sig (Elt F) :=
  Pipeline.withArrays spec2 c (U5 m c) fun w => (datR2 (E5 m) c).arrAt w cfg2.N
theorem U6_arr (c : Dev nD) (w : Fin cfg2.W) :
    U6 m c (Proc.devRef .tc (Pipeline.arrRef spec2 w)) = (datR2 (E5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
abbrev E6 : (c : Dev nD) → (b : Ref sig .tc) → Buf (Elt F) ((c : Thread nD τ).loc b) := fun c b => U6 m c b

abbrev U7 : Dev nD → Valuation τ sig (Elt F) := fun c => StableHlo.after hostOps3 (U6 m c)
abbrev E7 : (c : Dev nD) → (b : Ref sig .tc) → Buf (Elt F) ((c : Thread nD τ).loc b) := fun c b => U7 m c b

end Cert.Kernel.Hand

end
-- ==== Proof.K.Lin4.lean ====
import proofs.«418154_j20864951124059_3_alg».proof.Proof.K.LinBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outR4 (x0 : Vec F S512x2048 .bf16) (x1 : Vec F S2048x2048 .bf16) (x2 : Vec F S1x2048 .f32) : Vec F S512x2048 .f32 :=
  outLin k4_pay1 x0 x1 x2

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => outR4 (iblkR4 V c 0 t) (iblkR4 V c 1 t) (iblkR4 V c 2 t)
  Φ _ := Pipeline.ΦA spec4 c
  q _ := fullShare
  owed _ := 0

theorem A_eqR4 (c : Dev nD) (w : Fin cfg4.W) : (datR4 V c).A w = V c (Pipeline.arrRef spec4 w) := rfl

theorem afterR4_3 (c : Dev nD) (t : Fin cfg4.N) : (datR4 V c).after 3 t = outR4 (iblkR4 V c 0 t) (iblkR4 V c 1 t) (iblkR4 V c 2 t) := by dsimp only [datR4]

theorem beforeR4 (c : Dev nD) (t : Fin cfg4.N) : (∀ d, (datR4 V c).before 0 t d = iblkR4 V c 0 t) ∧ (∀ d, (datR4 V c).before 1 t d = iblkR4 V c 1 t) ∧ (∀ d, (datR4 V c).before 2 t d = iblkR4 V c 2 t) := by
  refine ⟨fun d => ?_, fun d => ?_, fun d => ?_⟩ <;> exact ((datR4 V c).before_in_eq_fetched _ rfl (fun _ => rfl) (fun _ _ _ => rfl) (fun _ => rfl) t d).trans rfl

theorem kernelR4_eq (t : Fin cfg4.N) : ∃ hst, bodyAt4 (F := F) t = linBody k4_pay1 (st4_0 t) (st4_1 t) (st4_2 t) (st4_3 t) hst :=
  ⟨_, by unfold bodyAt4; rw [cc4__linear_kernel_eq_skeleton]; rfl⟩

theorem body_obligationR4 (c : Dev nD) : BodyObligation (datR4 (F := F) V c) (defs₀ (F := F)) Variants.none () Set.univ := fun t => by
  rw [bigSep_W4, bigSep_W4]
  simp only [(beforeR4 V c t).1, (beforeR4 V c t).2.1, (beforeR4 V c t).2.2]
  show _ ⊢ wp frame (wpE (defs₀ (F := F)) Variants.none c none) Set.univ (bodyAt4 t) _
  obtain ⟨hst, hk⟩ := kernelR4_eq (F := F) t
  rw [hk, show (datR4 V c).owesAt () t.succ = (datR4 V c).owesAt () t.castSucc from rfl]
  dsimp only [datR4, outR4]
  iintro ⟨HΦ, Ho, ⟨%d0, H0⟩, ⟨%d1, H1⟩, ⟨%d2, H2⟩, ⟨%d3, H3⟩⟩
  iapply (sound_linBody k4_pay1 c Set.univ _ _ _ _ hst (iblkR4 V c 0 t) (iblkR4 V c 1 t) (iblkR4 V c 2 t) _)
  iframe H0 H1 H2
  isplitl [H3]; · iexists _; iexact H3
  iintro ⟨H0, H1, H2, H3⟩
  iframe

end

end Cert.Kernel.Hand

end
-- ==== Proof.K.AttnRuns.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the attention body's two branch conditions as arithmetic on the point's position (first chunk: position ≡ 0, last chunk: ≡ 3 mod 4),
-- and the points at which the output block is stored

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 2).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1

theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S2048x128 .bf16 := (Memref.whole cc3_stg3_0 : Memref sig .tc .vmem S2048x128 .bf16).view

abbrev ms3_0 (t : Fin cfg3.N) : Memref sig .tc .vmem S2048x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .bf16 := win3_3.stage (cfg3.slots t 3)
abbrev hs3_3 (t : Fin cfg3.N) : (ms3_3 t).IsWhole := hstage3_3 ((cfg3.slots t 3).cast nbuf3_3)

abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x128 .f32 := Memref.whole cc3_scratch2

abbrev VS3_0 : View sig .tc .vmem S2048x1 .f32 := scM3_0.view
abbrev VS3_1 : View sig .tc .vmem S2048x1 .f32 := scM3_1.view
abbrev VS3_2 : View sig .tc .vmem S2048x128 .f32 := scM3_2.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.Kernel.Hand

end
-- ==== Proof.K.AttnRun.lean ====
import proofs.«418154_j20864951124059_3_alg».proof.Proof.K.AttnRuns
import Idealize.ShloMosaic.Lib.Pipeline.Value

-- the attention body run once per case, with what it leaves as explicit functions of what it found

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the zero offset of a whole rectangle, however spelt
theorem hz_S2048x1 : (![0, 0] : Fin S2048x1.rank → ℕ) = fun _ => 0 := by funext a; fin_cases a <;> rfl
theorem hz_S2048x128 : (![0, 0] : Fin S2048x128.rank → ℕ) = fun _ => 0 := by funext a; fin_cases a <;> rfl
theorem hz_S1x1x1024x128 : (![0, 0, 0, 0] : Fin S1x1x1024x128.rank → ℕ) = fun _ => 0 := by funext a; fin_cases a <;> rfl

-- one key chunk's update: (quotient block, new row maximum, new row sum, new weighted sum) from the chunk's
-- queries, keys, values and the old maximum, sum and weighted sum
def upd3 (x0 : Vec F S2048x128 .bf16) (x1 x2 : Vec F S1x1x1024x128 .f32) (m l : Vec F S2048x1 .f32) (a : Vec F S2048x128 .f32) :
    Vec F S2048x128 .bf16 × Vec F S2048x1 .f32 × Vec F S2048x1 .f32 × Vec F S2048x128 .f32 :=
  (k3_pay4 (k3_pay2 (k3_pay8 x2) (k3_pay11 x0 x1 m m) (k3_pay13 x0 x1 m) a) (k3_pay1 (k3_pay14 x0 x1 m m l)),
   k3_pay3 (k3_pay10 x0 x1 m), k3_pay1 (k3_pay14 x0 x1 m m l), k3_pay2 (k3_pay8 x2) (k3_pay11 x0 x1 m m) (k3_pay13 x0 x1 m) a)

section
variable (c : Dev nD) (i : grid3.Coords) (arg3 : Memref sig .tc .vmem S2048x128 .bf16) (harg3 : arg3.IsWhole) (arg4 : Memref sig .tc .vmem S1x1x1024x128 .f32) (harg4 : arg4.IsWhole) (arg5 : Memref sig .tc .vmem S1x1x1024x128 .f32) (harg5 : arg5.IsWhole) (arg6 : Memref sig .tc .vmem S2048x128 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole)
  (x0 : Vec F S2048x128 .bf16) (x1 x2 : Vec F S1x1x1024x128 .f32) (xs0 xs1 : Vec F S2048x1 .f32) (xs2 : Vec F S2048x128 .f32) (xi3 : Vec F S2048x128 .bf16) (E : Set ℕ)

-- first chunk: the old state is overwritten by (-∞, 0, 0) before it is read
theorem run3_A (hc0 : cond3_0 i) (hc1 : ¬cond3_1 i) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (upd3 x0 x1 x2 k3_pay5 k3_pay6 k3_pay7).2.1 ∗ owns (c : Thread nD τ) arg8 fullShare (upd3 x0 x1 x2 k3_pay5 k3_pay6 k3_pay7).2.2.1 ∗ owns (c : Thread nD τ) arg9 fullShare (upd3 x0 x1 x2 k3_pay5 k3_pay6 k3_pay7).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_cons_unit_zero (S := S2048x1) hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_cons_unit_zero (S := S2048x1) hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_cons_unit_zero (S := S2048x128) hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

-- middle chunk: the update of the state the chunk before left
theorem run3_B (hc0 : ¬cond3_0 i) (hc1 : ¬cond3_1 i) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (upd3 x0 x1 x2 xs0 xs1 xs2).2.1 ∗ owns (c : Thread nD τ) arg8 fullShare (upd3 x0 x1 x2 xs0 xs1 xs2).2.2.1 ∗ owns (c : Thread nD τ) arg9 fullShare (upd3 x0 x1 x2 xs0 xs1 xs2).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5; obtain rfl := harg6.eq_unread hf6
  obtain rfl := harg7.eq_unread hfs0; obtain rfl := harg8.eq_unread hfs1; obtain rfl := harg9.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_unit_zero hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

-- last chunk: the same update, and the quotient block is stored
theorem run3_C (hc0 : ¬cond3_0 i) (hc1 : cond3_1 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2 ∗ owns (c : Thread nD τ) arg6 fullShare (upd3 x0 x1 x2 xs0 xs1 xs2).1 ∗ owns (c : Thread nD τ) arg7 fullShare (upd3 x0 x1 x2 xs0 xs1 xs2).2.1 ∗ owns (c : Thread nD τ) arg8 fullShare (upd3 x0 x1 x2 xs0 xs1 xs2).2.2.1 ∗ owns (c : Thread nD τ) arg9 fullShare (upd3 x0 x1 x2 xs0 xs1 xs2).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5
  obtain rfl := harg7.eq_unread hfs0; obtain rfl := harg8.eq_unread hfs1; obtain rfl := harg9.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (fun y => View.cover_of_tiledL _ S2048x128.size (by sl_kernel_rfl) y)]
    sl_unfold_words
    rw [View.canon_unit_zero hz_S2048x128]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_unit_zero hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

end
end Cert.Kernel.Hand
end
-- ==== Proof.K.Attn.lean ====
import proofs.«418154_j20864951124059_3_alg».proof.Proof.K.AttnRun

-- the attention region's proof data: the state after each point, the invariant between points, and the body at each of the three cases

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- the state after position n: the update of the point's blocks, from (-∞, 0, 0) at a first chunk, else from the point before
def outsAtR3 (c : Dev nD) : (n : ℕ) → n < cfg3.N → Vec F S2048x128 .bf16 × Vec F S2048x1 .f32 × Vec F S2048x1 .f32 × Vec F S2048x128 .f32
  | 0, hn => upd3 (iblkR3 V c 0 ⟨0, hn⟩) (iblkR3 V c 1 ⟨0, hn⟩) (iblkR3 V c 2 ⟨0, hn⟩) k3_pay5 k3_pay6 k3_pay7
  | n + 1, hn =>
    if (n + 1) % 4 = 0 then upd3 (iblkR3 V c 0 ⟨n + 1, hn⟩) (iblkR3 V c 1 ⟨n + 1, hn⟩) (iblkR3 V c 2 ⟨n + 1, hn⟩) k3_pay5 k3_pay6 k3_pay7
    else upd3 (iblkR3 V c 0 ⟨n + 1, hn⟩) (iblkR3 V c 1 ⟨n + 1, hn⟩) (iblkR3 V c 2 ⟨n + 1, hn⟩) (outsAtR3 c n (Nat.lt_of_succ_lt hn)).2.1 (outsAtR3 c n (Nat.lt_of_succ_lt hn)).2.2.1 (outsAtR3 c n (Nat.lt_of_succ_lt hn)).2.2.2

abbrev prevR3 (c : Dev nD) (t : Fin cfg3.N) := outsAtR3 V c (t.val - 1) (Nat.lt_of_le_of_lt (Nat.sub_le _ _) t.isLt)

theorem outsAtR3_first (c : Dev nD) (t : Fin cfg3.N) (h0 : t.val % 4 = 0) :
    outsAtR3 V c t.val t.isLt = upd3 (iblkR3 V c 0 t) (iblkR3 V c 1 t) (iblkR3 V c 2 t) k3_pay5 k3_pay6 k3_pay7 := by
  obtain ⟨n, hn⟩ := t
  cases n with
  | zero => rfl
  | succ n => exact if_pos h0

theorem outsAtR3_next (c : Dev nD) (t : Fin cfg3.N) (h0 : ¬t.val % 4 = 0) :
    outsAtR3 V c t.val t.isLt = upd3 (iblkR3 V c 0 t) (iblkR3 V c 1 t) (iblkR3 V c 2 t) (prevR3 V c t).2.1 (prevR3 V c t).2.2.1 (prevR3 V c t).2.2.2 := by
  obtain ⟨n, hn⟩ := t
  cases n with
  | zero => exact absurd (Nat.zero_mod _) h0
  | succ n => exact if_neg h0

-- between two points the invariant holds the state the earlier one left
def PhiSR3 (c : Dev nD) : (n : ℕ) → n ≤ cfg3.N → sProp 𝕄
  | 0, _ => Pipeline.ΦA spec3 c
  | n + 1, hn => iprop(iprop(iprop(owns (c : Thread nD τ) scM3_0 fullShare (outsAtR3 V c n hn).2.1 ∗ owns (c : Thread nD τ) scM3_1 fullShare (outsAtR3 V c n hn).2.2.1 ∗ owns (c : Thread nD τ) scM3_2 fullShare (outsAtR3 V c n hn).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiSR3_zero (c : Dev nD) (n : ℕ) (h : n ≤ cfg3.N) (hz : n = 0) : PhiSR3 V c n h = Pipeline.ΦA spec3 c := by
  subst hz; rfl

theorem PhiSR3_succ (c : Dev nD) (n : ℕ) (hn : n < cfg3.N) :
    PhiSR3 V c (n + 1) hn = iprop(iprop(iprop(owns (c : Thread nD τ) scM3_0 fullShare (outsAtR3 V c n hn).2.1 ∗ owns (c : Thread nD τ) scM3_1 fullShare (outsAtR3 V c n hn).2.2.1 ∗ owns (c : Thread nD τ) scM3_2 fullShare (outsAtR3 V c n hn).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiSR3_pos (c : Dev nD) (n : ℕ) (h : n ≤ cfg3.N) (hz : n ≠ 0) :
    PhiSR3 V c n h = iprop(iprop(iprop(owns (c : Thread nD τ) scM3_0 fullShare (outsAtR3 V c (n - 1) (by omega)).2.1 ∗ owns (c : Thread nD τ) scM3_1 fullShare (outsAtR3 V c (n - 1) (by omega)).2.2.1 ∗ owns (c : Thread nD τ) scM3_2 fullShare (outsAtR3 V c (n - 1) (by omega)).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

-- a known state is in particular some state
theorem PhiSR3_forget (c : Dev nD) (n : ℕ) (h : n ≤ cfg3.N) : PhiSR3 V c n h ⊢ Pipeline.ΦA spec3 c := by
  cases n with
  | zero => exact Idealize.SL.BI.Entails.refl _
  | succ n =>
    rw [PhiSR3_succ, PhiA3_eq]
    iintro ⟨⟨⟨HS0, HS1, HS2⟩, HR⟩, Hg⟩
    iframe
    isplitl [HS0]; · iexists _; iexact HS0
    isplitl [HS1]; · iexists _; iexact HS1
    iexists _; iexact HS2

def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]

theorem PhiSR3_castSucc (c : Dev nD) (t : Fin cfg3.N) :
    (datR3 V c).Φ t.castSucc = PhiSR3 V c t.val (Nat.le_of_lt t.isLt) := by
  dsimp only [datR3]; simp only [Fin.coe_castSucc]

theorem afterR3_3 (c : Dev nD) (t : Fin cfg3.N) : (datR3 V c).after 3 t = (outsAtR3 V c t.val t.isLt).1 := rfl

theorem beforeR3 (c : Dev nD) (t : Fin cfg3.N) : (∀ d, (datR3 V c).before 0 t d = iblkR3 V c 0 t) ∧ (∀ d, (datR3 V c).before 1 t d = iblkR3 V c 1 t) ∧ (∀ d, (datR3 V c).before 2 t d = iblkR3 V c 2 t) := by
  refine ⟨fun d => ?_, fun d => ?_, fun d => ?_⟩ <;> exact ((datR3 V c).before_in_eq_fetched _ rfl (fun _ => rfl) (fun _ _ _ => rfl) (fun _ => rfl) t d).trans rfl

theorem leavesR3 (c : Dev nD) (t : Fin cfg3.N) : (datR3 V c).leavesExact 0 t = owns (c : Thread nD τ) (ms3_0 t) fullShare (iblkR3 V c 0 t)
    ∧ (datR3 V c).leavesExact 1 t = owns (c : Thread nD τ) (ms3_1 t) fullShare (iblkR3 V c 1 t)
    ∧ (datR3 V c).leavesExact 2 t = owns (c : Thread nD τ) (ms3_2 t) fullShare (iblkR3 V c 2 t) := by
  refine ⟨?_, ?_, ?_⟩ <;> unfold Dat.leavesExact
  · rw [liveAt3_0 t]; rfl
  · rw [liveAt3_1 t]; rfl
  · rw [liveAt3_2 t]; rfl

theorem leavesR3_3_idle (c : Dev nD) (t : Fin cfg3.N) (h1 : ¬t.val % 4 = 3) :
    (datR3 V c).leavesExact 3 t = iprop(∃ d, owns (c : Thread nD τ) (ms3_3 t) fullShare ((datR3 V c).before 3 t d)) := by
  by_cases h0 : t.val % 4 = 0
  · exact Dat.leavesExact_idle (datR3 V c) 3 t (idleAt3_3_A t ((hcond3_0 t).mpr h0) (fun h => h1 ((hcond3_1 t).mp h))) (noFlush3_3_A t ((hcond3_0 t).mpr h0) (fun h => h1 ((hcond3_1 t).mp h)))
  · exact Dat.leavesExact_idle (datR3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))

theorem leavesR3_3_live (c : Dev nD) (t : Fin cfg3.N) (h0 : ¬t.val % 4 = 0) (h1 : t.val % 4 = 3) :
    (datR3 V c).leavesExact 3 t = owns (c : Thread nD τ) (ms3_3 t) fullShare (outsAtR3 V c t.val t.isLt).1 := by
  unfold Dat.leavesExact; rw [liveAt3_3_C t (fun h => h0 ((hcond3_0 t).mp h)) ((hcond3_1 t).mpr h1)]; rfl

def bodyPreR3 (c : Dev nD) (t : Fin cfg3.N) : sProp 𝕄 :=
  iprop((datR3 V c).Φ t.castSucc ∗ (datR3 V c).owesAt () t.castSucc
    ∗ (∃ d, owns (c : Thread nD τ) (ms3_0 t) fullShare ((datR3 V c).before 0 t d))
    ∗ (∃ d, owns (c : Thread nD τ) (ms3_1 t) fullShare ((datR3 V c).before 1 t d))
    ∗ (∃ d, owns (c : Thread nD τ) (ms3_2 t) fullShare ((datR3 V c).before 2 t d))
    ∗ (∃ d, owns (c : Thread nD τ) (ms3_3 t) fullShare ((datR3 V c).before 3 t d)))

def bodyPostR3 (c : Dev nD) (t : Fin cfg3.N) : sProp 𝕄 :=
  iprop((datR3 V c).Φ t.succ ∗ (datR3 V c).owesAt () t.succ
    ∗ (datR3 V c).leavesExact 0 t
    ∗ (datR3 V c).leavesExact 1 t
    ∗ (datR3 V c).leavesExact 2 t
    ∗ (datR3 V c).leavesExact 3 t)

-- the position modulo 4 selects the case
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3 bodyAt3
  simp only [(beforeR3 V c t).1, (beforeR3 V c t).2.1, (beforeR3 V c t).2.2]
  rw [show (datR3 V c).owesAt () t.succ = (datR3 V c).owesAt () t.castSucc from rfl,
    show (datR3 V c).Φ t.succ = PhiSR3 V c (t.val + 1) t.isLt from rfl, PhiSR3_succ,
    (leavesR3 V c t).1, (leavesR3 V c t).2.1, (leavesR3 V c t).2.2, PhiSR3_castSucc V c t]
  by_cases h0 : t.val % 4 = 0
  · have h1 : ¬t.val % 4 = 3 := by omega
    rw [leavesR3_3_idle V c t h1, outsAtR3_first V c t h0]
    refine (sep_mono_left (PhiSR3_forget V c _ _)).trans ?_
    rw [PhiA3_eq]
    iintro ⟨⟨⟨⟨HS0, HS1, HS2⟩, HR⟩, Hg⟩, Ho, ⟨%d0, H0⟩, ⟨%d1, H1⟩, ⟨%d2, H2⟩, ⟨%d3, H3⟩⟩
    iapply (run3_A c (grid3.coords t) _ _ _ _ _ _ _ _ _ _ _ _ _ _ (iblkR3 V c 0 t) (iblkR3 V c 1 t) (iblkR3 V c 2 t) _ Set.univ ((hcond3_0 t).mpr h0) (fun h => h1 ((hcond3_1 t).mp h)) _)
    iframe H0 H1 H2 H3 HS0 HS1 HS2
    iintro ⟨H0, H1, H2, H3, HS0, HS1, HS2⟩
    iframe H0 H1 H2 HS0 HS1 HS2 HR Hg Ho
    iexists _; iexact H3
  have hz : t.val ≠ 0 := fun e => h0 (by rw [e])
  by_cases h1 : t.val % 4 = 3
  · rw [leavesR3_3_live V c t h0 h1, outsAtR3_next V c t h0, PhiSR3_pos V c _ _ hz]
    iintro ⟨⟨⟨⟨HS0, HS1, HS2⟩, HR⟩, Hg⟩, Ho, ⟨%d0, H0⟩, ⟨%d1, H1⟩, ⟨%d2, H2⟩, ⟨%d3, H3⟩⟩
    iapply (run3_C c (grid3.coords t) _ _ _ _ _ _ _ _ _ _ _ _ _ _ (iblkR3 V c 0 t) (iblkR3 V c 1 t) (iblkR3 V c 2 t) _ _ _ Set.univ (fun h => h0 ((hcond3_0 t).mp h)) ((hcond3_1 t).mpr h1) _)
    iframe H0 H1 H2 HS0 HS1 HS2
    isplitl [H3]; · iexists _; iexact H3
    iintro ⟨H0, H1, H2, H3, HS0, HS1, HS2⟩
    iframe
  · rw [leavesR3_3_idle V c t h1, outsAtR3_next V c t h0, PhiSR3_pos V c _ _ hz]
    iintro ⟨⟨⟨⟨HS0, HS1, HS2⟩, HR⟩, Hg⟩, Ho, ⟨%d0, H0⟩, ⟨%d1, H1⟩, ⟨%d2, H2⟩, ⟨%d3, H3⟩⟩
    iapply (run3_B c (grid3.coords t) _ _ _ _ _ _ _ _ _ _ _ _ _ _ (iblkR3 V c 0 t) (iblkR3 V c 1 t) (iblkR3 V c 2 t) _ _ _ _ Set.univ (fun h => h0 ((hcond3_0 t).mp h)) (fun h => h1 ((hcond3_1 t).mp h)) _)
    iframe H0 H1 H2 H3 HS0 HS1 HS2
    iintro ⟨H0, H1, H2, H3, HS0, HS1, HS2⟩
    iframe H0 H1 H2 HS0 HS1 HS2 HR Hg Ho
    iexists _; iexact H3

theorem body_obligationR3 (c : Dev nD) : BodyObligation (datR3 (F := F) V c) (defs₀ (F := F)) Variants.none () Set.univ := fun t => by
  rw [bigSep_W3, bigSep_W3]
  exact sound_bodyR3 V c t

theorem hinR3 (c : Dev nD) : Pipeline.ΦA spec3 c ⊢ (datR3 V c).Φ 0 := by
  rw [show (datR3 V c).Φ 0 = PhiSR3 V c 0 (Nat.zero_le _) from rfl, PhiSR3_zero V c 0 _ rfl]
  try exact Idealize.SL.BI.Entails.refl _

theorem houtR3 (c : Dev nD) : (datR3 V c).Φ (Fin.last cfg3.N) ⊢ Pipeline.ΦA spec3 c := by
  rw [show (datR3 V c).Φ (Fin.last cfg3.N) = PhiSR3 V c (Fin.last cfg3.N).val (Nat.le_of_lt_succ (Fin.last cfg3.N).isLt) from rfl]
  exact PhiSR3_forget V c _ _

end

end Cert.Kernel.Hand

end
-- ==== Proof.K.FoldB.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import proofs.«418154_j20864951124059_3_alg».proof.Proof.K.FoldA
import proofs.«418154_j20864951124059_3_alg».proof.Proof.K.Lin4
import proofs.«418154_j20864951124059_3_alg».proof.Proof.K.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the boundaries from the attention region on, and the regions' configurations and proof data as one family

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def U8 (c : Dev nD) : Valuation τ sig (Elt F) :=
  Pipeline.withArrays spec3 c (U7 m c) fun w => (datR3 (E7 m) c).arrAt w cfg3.N
theorem U8_arr (c : Dev nD) (w : Fin cfg3.W) :
    U8 m c (Proc.devRef .tc (Pipeline.arrRef spec3 w)) = (datR3 (E7 m) c).arrAt w cfg3.N := by
  unfold U8; exact Pipeline.withArrays_arr spec3 launch3.win.arr_inj c _ _ w
theorem U8_of_ne (c : Dev nD) (b : Ref sig .tc) (hb : ∀ w, Pipeline.arrRef spec3 w ≠ b) :
    U8 m c (Proc.devRef .tc b) = U7 m c (Proc.devRef .tc b) := by
  unfold U8; exact Pipeline.withArrays_of_ne spec3 c _ _ b hb
abbrev E8 : (c : Dev nD) → (b : Ref sig .tc) → Buf (Elt F) ((c : Thread nD τ).loc b) := fun c b => U8 m c b

abbrev U9 : Dev nD → Valuation τ sig (Elt F) := fun c => StableHlo.after hostOps4 (U8 m c)
abbrev E9 : (c : Dev nD) → (b : Ref sig .tc) → Buf (Elt F) ((c : Thread nD τ).loc b) := fun c b => U9 m c b

def U10 (c : Dev nD) : Valuation τ sig (Elt F) :=
  Pipeline.withArrays spec4 c (U9 m c) fun w => (datR4 (E9 m) c).arrAt w cfg4.N
theorem U10_arr (c : Dev nD) (w : Fin cfg4.W) :
    U10 m c (Proc.devRef .tc (Pipeline.arrRef spec4 w)) = (datR4 (E9 m) c).arrAt w cfg4.N := by
  unfold U10; exact Pipeline.withArrays_arr spec4 launch4.win.arr_inj c _ _ w
theorem U10_of_ne (c : Dev nD) (b : Ref sig .tc) (hb : ∀ w, Pipeline.arrRef spec4 w ≠ b) :
    U10 m c (Proc.devRef .tc b) = U9 m c (Proc.devRef .tc b) := by
  unfold U10; exact Pipeline.withArrays_of_ne spec4 c _ _ b hb
abbrev E10 : (c : Dev nD) → (b : Ref sig .tc) → Buf (Elt F) ((c : Thread nD τ).loc b) := fun c b => U10 m c b

abbrev U11 : Dev nD → Valuation τ sig (Elt F) := fun c => StableHlo.after hostOps5 (U10 m c)

abbrev admH : (p : Fin 5) → (pcfgs (F := F) p).Adm := fun p => (cfgs p).toPCfg_adm

def pdatsH : (p : Fin 5) → (c : Dev nD) → Dat τ (Elt F) Unit ℕ (UR sig nD τ) ℕ (Pipeline.pin (pcfgs (F := F)) admH p) c
  | ⟨0, _⟩ => fun c => datR0 (E1 m) c
  | ⟨1, _⟩ => fun c => datR1 (E3 m) c
  | ⟨2, _⟩ => fun c => datR2 (E5 m) c
  | ⟨3, _⟩ => fun c => datR3 (E7 m) c
  | ⟨4, _⟩ => fun c => datR4 (E9 m) c

abbrev 𝒱H : Variants := Variants.none
abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

end Cert.Kernel.Hand

end
-- ==== Proof.LibRegion.lean ====
import Idealize.ShloMosaic.Lib.Pipeline.FrameSuffix
import Idealize.ShloMosaic.Lib.Pipeline.RegionsLoop
import Idealize.ShloMosaic.Lib.Tactic

noncomputable section

namespace Idealize.ShloMosaic.Pipeline

open Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ₀ : SL.Sem.Labels} {P : Type} [Fintype P]
variable {pcs : P → PCfg sig Λ₀ Val} {a : (p : P) → (pcs p).Adm}
  {pdats : (p : P) → (c : Dev nD) → Dat τ Val Ix Name U Lvl (pin pcs a p) c} {ι : Ix}
  {defs₀ : Defs nD τ sig Val Λ₀} {𝒱₀ : Variants} {L : GSem nD τ sig → Finset Ix} {lv : GSem nD τ sig → Ix → Lvl} {p : P}

local notation "𝕄" => MT nD τ sig Ix Val Name U Lvl

-- a separating product over no index is emp
theorem prefHeld_none {pre : Prefetch sig} (hK : pre.K = 0) (c : Dev nD) (q : Fin pre.K → PosShare TreeShare) (V : pre.Contents Val) :
    (prefHeld pre c q V : sProp 𝕄) = BI.emp := by
  haveI : IsEmpty (Fin pre.K) := hK ▸ Fin.isEmpty'
  unfold prefHeld; rw [Finset.univ_eq_empty, BI.bigSep_empty]

-- entry splits the region's arrays off the buffers held at `V`; exit puts them back at their final contents
def RegionSeg.ofHeld (kit : PLaunchFacts (nD := nD) (τ := τ) pcs p) (hbody : ∀ c, BodyObligation (pdats p c) defs₀ 𝒱₀ ι Set.univ)
    (V : Dev nD → Valuation τ sig Val)
    (hin : ∀ c, iprop(scopedRest (pin pcs a p).spec c ∗ ∃ r, prngReg c r) ⊢ (pdats p c).Φ 0)
    (hout : ∀ c, (pdats p c).Φ (Fin.last (pin pcs a p).N) ⊢ iprop(scopedRest (pin pcs a p).spec c ∗ ∃ r, prngReg c r))
    (hA : ∀ c w, (pdats p c).A w = V c (arrRef (pin pcs a p).spec w) := by exact fun _ _ => rfl)
    (hK : (pcs p).pre.K = 0 := by rfl) (hq : ∀ c w, (pdats p c).q w = fullShare := by exact fun _ _ => rfl)
    (howed : ∀ c t, (pdats p c).owed t = 0 := by exact fun _ _ => rfl)
    (hrec : ∀ c, (pdats p c).recorded 0 = Set.univ := by exact fun _ => rfl) :
    RegionSeg pcs a pdats ι defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero _ _ _ _ L lv p howed
  pre c := iprop(StableHlo.held (c : Thread nD τ) (ucRefs τ sig) (V c) ∗ (∃ r, prngReg c r) ∗ ∃ W, owes (c : Thread nD τ) (0 : CellTallies nD τ sig Ix) W)
  post c := iprop(StableHlo.held (c : Thread nD τ) (ucRefs τ sig) (withArrays (pin pcs a p).spec c (V c) ((pdats p c).arrAt · (pin pcs a p).N)) ∗ (∃ r, prngReg c r) ∗ ∃ W, owes (c : Thread nD τ) (0 : CellTallies nD τ sig Ix) W)
  X c := iprop(∃ r, prngReg c r)
  Y c := iprop(∃ r, prngReg c r)
  Z c := unscopedRest (pin pcs a p).spec c fun b => V c b
  hentry c := by
    have hsplit := arrays_of_unscopedBufs pcs a pdats kit.win kit.arr_whole c ((pdats p c).share_full (hq c)) (fun b => V c b) (hA c)
    rw [unscopedBufs_held] at hsplit
    unfold Dat.owesAt owesWithin; rw [ownSems0_none, prefHeld_none hK, howed]
    iintro ⟨⟨Hub, Hp, %W, HO⟩, -, -⟩
    ihave H := hsplit $$ Hub
    icases H with ⟨Ha, Hrest⟩
    imodintro
    iframe Ha Hp Hrest
    isplitr; · iempintro
    iexists W; iframe HO
    ipureintro; exact fun _ _ => Or.inl (hrec c ▸ trivial)
  hin c := by rw [prefHeld_none hK]; exact (sep_mono_right Laws.emp_sep.1).trans (sep_symm.trans (hin c))
  hout c := by rw [ownSems0_none]; exact (hout c).trans (sep_symm.trans (sep_mono_right Laws.emp_sep.2))
  hexit c := by
    have hjoin := unscopedBufs_of_arrays pcs a kit.win kit.arr_whole c pdats ((pdats p c).share_full (hq c))
      (fun b => V c b) (fun b => withArrays (pin pcs a p).spec c (V c) ((pdats p c).arrAt · (pin pcs a p).N) b)
      _ (fun w => (withArrays_arr (pin pcs a p).spec kit.win.arr_inj c (V c) ((pdats p c).arrAt · (pin pcs a p).N) w).symm)
      fun b hb => withArrays_of_ne _ c _ _ b fun w e => hb (Finset.mem_image.mpr ⟨w, Finset.mem_univ _, e⟩)
    rw [unscopedBufs_held] at hjoin
    unfold Dat.owesAt owesWithin; rw [howed]
    iintro ⟨Ha, ⟨%W, -, HO⟩, HY, Hrest⟩
    imodintro
    iframe HY
    isplitr [HO]; · iapply hjoin; iframe
    iexists W; iexact HO

end Idealize.ShloMosaic.Pipeline

end
-- ==== Proof.K.RegR0.lean ====
import proofs.«418154_j20864951124059_3_alg».proof.Proof.K.FoldB
import proofs.«418154_j20864951124059_3_alg».proof.Proof.LibRegion

namespace Cert.Kernel.Hand

open Cert.Kernel Cert.Kernel.Gen Idealize.ShloMosaic

variable {F : FTy → Type} [FloatOps F] (m : (ℓ : Loc nD τ sig) → Buf (Elt F) ℓ)

noncomputable def regR0 : Pipeline.RegionSeg (pcfgs (F := F)) admH (pdatsH m) () defs₀ 𝒱H LH lvH 0 :=
  .ofHeld launch0.toP (body_obligationR0 (E1 m)) (U1 m) (fun _ => .rfl) fun _ => .rfl

end Cert.Kernel.Hand
-- ==== Proof.K.RegR1.lean ====
import proofs.«418154_j20864951124059_3_alg».proof.Proof.K.FoldB
import proofs.«418154_j20864951124059_3_alg».proof.Proof.LibRegion

namespace Cert.Kernel.Hand

open Cert.Kernel Cert.Kernel.Gen Idealize.ShloMosaic

variable {F : FTy → Type} [FloatOps F] (m : (ℓ : Loc nD τ sig) → Buf (Elt F) ℓ)

noncomputable def regR1 : Pipeline.RegionSeg (pcfgs (F := F)) admH (pdatsH m) () defs₀ 𝒱H LH lvH 1 :=
  .ofHeld launch1.toP (body_obligationR1 (E3 m)) (U3 m) (fun _ => .rfl) fun _ => .rfl

end Cert.Kernel.Hand
-- ==== Proof.K.RegR2.lean ====
import proofs.«418154_j20864951124059_3_alg».proof.Proof.K.FoldB
import proofs.«418154_j20864951124059_3_alg».proof.Proof.LibRegion

namespace Cert.Kernel.Hand

open Cert.Kernel Cert.Kernel.Gen Idealize.ShloMosaic

variable {F : FTy → Type} [FloatOps F] (m : (ℓ : Loc nD τ sig) → Buf (Elt F) ℓ)

noncomputable def regR2 : Pipeline.RegionSeg (pcfgs (F := F)) admH (pdatsH m) () defs₀ 𝒱H LH lvH 2 :=
  .ofHeld launch2.toP (body_obligationR2 (E5 m)) (U5 m) (fun _ => .rfl) fun _ => .rfl

end Cert.Kernel.Hand
-- ==== Proof.K.RegR3.lean ====
import proofs.«418154_j20864951124059_3_alg».proof.Proof.K.FoldB
import proofs.«418154_j20864951124059_3_alg».proof.Proof.LibRegion

namespace Cert.Kernel.Hand

open Cert.Kernel Cert.Kernel.Gen Idealize.ShloMosaic

variable {F : FTy → Type} [FloatOps F] (m : (ℓ : Loc nD τ sig) → Buf (Elt F) ℓ)

noncomputable def regR3 : Pipeline.RegionSeg (pcfgs (F := F)) admH (pdatsH m) () defs₀ 𝒱H LH lvH 3 :=
  .ofHeld launch3.toP (body_obligationR3 (E7 m)) (U7 m) (hinR3 (E7 m)) (houtR3 (E7 m))

end Cert.Kernel.Hand
-- ==== Proof.K.RegR4.lean ====
import proofs.«418154_j20864951124059_3_alg».proof.Proof.K.FoldB
import proofs.«418154_j20864951124059_3_alg».proof.Proof.LibRegion

namespace Cert.Kernel.Hand

open Cert.Kernel Cert.Kernel.Gen Idealize.ShloMosaic

variable {F : FTy → Type} [FloatOps F] (m : (ℓ : Loc nD τ sig) → Buf (Elt F) ℓ)

noncomputable def regR4 : Pipeline.RegionSeg (pcfgs (F := F)) admH (pdatsH m) () defs₀ 𝒱H LH lvH 4 :=
  .ofHeld launch4.toP (body_obligationR4 (E9 m)) (U9 m) (fun _ => .rfl) fun _ => .rfl

end Cert.Kernel.Hand
-- ==== Proof.K.Run.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import proofs.«418154_j20864951124059_3_alg».proof.Proof.K.RegR0
import proofs.«418154_j20864951124059_3_alg».proof.Proof.K.RegR1
import proofs.«418154_j20864951124059_3_alg».proof.Proof.K.RegR2
import proofs.«418154_j20864951124059_3_alg».proof.Proof.K.RegR3
import proofs.«418154_j20864951124059_3_alg».proof.Proof.K.RegR4
import proofs.«418154_j20864951124059_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the program is its eleven items run one after the other, each item's exit the next one's entry

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsH : List (Pipeline.Seg (pcfgs (F := F)) admH (pdatsH m) () defs₀ 𝒱H LH lvH) :=
  [ .host (hsegH hostOps0 hostOps0_sub hostOps0_fresh (U0 m)),
    .region (regR0 m),
    .host (hsegH hostOps1 hostOps1_sub hostOps1_fresh (U2 m)),
    .region (regR1 m),
    .host (hsegH hostOps2 hostOps2_sub hostOps2_fresh (U4 m)),
    .region (regR2 m),
    .host (hsegH hostOps3 hostOps3_sub hostOps3_fresh (U6 m)),
    .region (regR3 m),
    .host (hsegH hostOps4 hostOps4_sub hostOps4_fresh (U8 m)),
    .region (regR4 m),
    .host (hsegH hostOps5 hostOps5_sub hostOps5_fresh (U10 m)) ]

theorem main_runH (c : Dev nD) : main (F := F) c = Pipeline.Seg.run (segsH m) := (main_chain c).trans (by chain_rfl)

abbrev TnH (c : Dev nD) : sProp 𝕄 := iprop(StableHlo.held (c : Thread nD τ) (Pipeline.ucRefs τ sig) (U11 m c) ∗ ∃ r, prngReg c r)

set_option backward.isDefEq.respectTransparency.types false in

theorem run_allH : θ_run defs (onTc (τ := τ) (main (F := F))) ⟨m, fun _ => 0, ρ⟩ (fun r => ∀ c : Dev nD,
      ∀ b ∈ Pipeline.ucRefs τ sig, r.2.mem (((c : Thread nD τ)).1, b) = U11 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ RH c)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by

        show iprop(StableHlo.held (c : Thread nD τ) (Pipeline.ucRefs τ sig) (U11 m c)
            ∗ iprop((∃ r, prngReg c r) ∗ ∃ W, owes (c : Thread nD τ) (0 : CellTallies nD τ sig Unit) W)) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U11 m c b)
    (hfin := fun c s' => by
      iintro ⟨⟨Hh, -⟩, HSI⟩
      unfold StableHlo.held
      imodintro
      iapply (pointsTo_read_all (Pipeline.ucRefs τ sig) (fun b => (((c : Thread nD τ)).1, b)) (U11 m c) s')
      isplitl [Hh] <;> iassumption)
    (hQ := fun s h c => h c)

end Cert.Kernel.Hand

end
-- ==== Proof.K.Frame.lean ====
import proofs.«418154_j20864951124059_3_alg».proof.Proof.Gen.Kernel.Launch
import proofs.«418154_j20864951124059_3_alg».proof.Proof.Gen.Kernel.Skeleton
import proofs.«418154_j20864951124059_3_alg».proof.Proof.Gen.Kernel.Points
import proofs.«418154_j20864951124059_3_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- an array that no item writes ends as launched

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Untouched (b : Ref sig .tc) : Prop :=
  (b ∉ hostOps0_W ∧ b ∉ hostOps1_W ∧ b ∉ hostOps2_W ∧ b ∉ hostOps3_W ∧ b ∉ hostOps4_W ∧ b ∉ hostOps5_W)
    ∧ (∀ w, Pipeline.arrRef spec0 w ≠ b) ∧ (∀ w, Pipeline.arrRef spec1 w ≠ b) ∧ (∀ w, Pipeline.arrRef spec2 w ≠ b)
    ∧ (∀ w, Pipeline.arrRef spec3 w ≠ b) ∧ (∀ w, Pipeline.arrRef spec4 w ≠ b)

theorem U11_of_untouched (c : Dev nD) (b : Ref sig .tc) (hb : Untouched b) :
    U11 m c (Proc.devRef .tc b) = m ((c : Thread nD τ).loc b) := by
  obtain ⟨⟨h0, h1, h2, h3, h4, h5⟩, w0, w1, w2, w3, w4⟩ := hb
  calc U11 m c (Proc.devRef .tc b)
    _ = U10 m c (Proc.devRef .tc b) := StableHlo.after_of_writes_sub hostOps5 _ hostOps5_writes h5
    _ = U9 m c (Proc.devRef .tc b) := U10_of_ne m c b w4
    _ = U8 m c (Proc.devRef .tc b) := StableHlo.after_of_writes_sub hostOps4 _ hostOps4_writes h4
    _ = U7 m c (Proc.devRef .tc b) := U8_of_ne m c b w3
    _ = U6 m c (Proc.devRef .tc b) := StableHlo.after_of_writes_sub hostOps3 _ hostOps3_writes h3
    _ = U5 m c (Proc.devRef .tc b) := U6_of_ne m c b w2
    _ = U4 m c (Proc.devRef .tc b) := StableHlo.after_of_writes_sub hostOps2 _ hostOps2_writes h2
    _ = U3 m c (Proc.devRef .tc b) := U4_of_ne m c b w1
    _ = U2 m c (Proc.devRef .tc b) := StableHlo.after_of_writes_sub hostOps1 _ hostOps1_writes h1
    _ = U1 m c (Proc.devRef .tc b) := U2_of_ne m c b w0
    _ = U0 m c (Proc.devRef .tc b) := StableHlo.after_of_writes_sub hostOps0 _ hostOps0_writes h0
    _ = m ((c : Thread nD τ).loc b) := rfl

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem kept (s : MemSt nD τ sig (Elt F)) (c : Dev nD)
    (h : ∀ b ∈ Pipeline.ucRefs τ sig, s.mem (((c : Thread nD τ)).1, b) = U11 m c b)
    (b : Ref sig .tc) (hs : ¬ (Proc.devRef .tc b : DevRef τ sig).isScoped) (hb : Untouched b) :
    s.mem ((c.tc : Thread nD τ).loc b) = m ((c.tc : Thread nD τ).loc b) :=
  (h _ (mem_ucH b hs)).trans (U11_of_untouched m c b hb)

abbrev Kept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)

theorem kept_all (s : MemSt nD τ sig (Elt F)) (c : Dev nD)
    (h : ∀ b ∈ Pipeline.ucRefs τ sig, s.mem (((c : Thread nD τ)).1, b) = U11 m c b) : Kept m s c :=
  ⟨kept m s c h main_arg0 (by decide) (by decide),
   kept m s c h main_arg1 (by decide) (by decide),
   kept m s c h main_arg2 (by decide) (by decide),
   kept m s c h main_arg3 (by decide) (by decide),
   kept m s c h main_arg4 (by decide) (by decide),
   kept m s c h main_arg5 (by decide) (by decide),
   kept m s c h main_arg6 (by decide) (by decide),
   kept m s c h main_arg7 (by decide) (by decide),
   kept m s c h main_arg8 (by decide) (by decide),
   kept m s c h main_arg9 (by decide) (by decide),
   kept m s c h main_arg10 (by decide) (by decide)⟩

theorem frameH : θ_run defs (onTc (τ := τ) (main (F := F))) ⟨m, fun _ => 0, ρ⟩ (fun r => ∀ c : Dev nD, Kept m r.2 c) :=
  (θ_run defs _ _).mono (fun r h c => kept_all m r.2 c (h c)) (run_allH m ρ)

end Cert.Kernel.Hand

end
-- ==== Proof.KI.LinBody.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

section
variable {e : EltTy} (pay : Vec F S512x2048 .bf16 → Vec F S2048x2048 .bf16 → Vec F S1x2048 .f32 → Vec F S512x2048 e)

def outLin (x0 : Vec F S512x2048 .bf16) (x1 : Vec F S2048x2048 .bf16) (x2 : Vec F S1x2048 .f32) : Vec F S512x2048 e :=
  View.canon [⟨rX, pay (View.ld x0 rX) (View.ld x1 rW) (View.ld x2 rB)⟩]

def linBody (arg1 : Memref sig .tc .vmem S512x2048 .bf16) (arg2 : Memref sig .tc .vmem S2048x2048 .bf16) (arg3 : Memref sig .tc .vmem S1x2048 .f32)
    (arg4 : Memref sig .tc .vmem S512x2048 e) (hst : (arg4.access rX).Stores Finset.univ) : Prog (TpuEff nD τ sig (Elt F) Λ₀ .tc) PUnit := do
  let v0 : Vec F S512x2048 .bf16 ← Prog.lift (.load arg1 rX.toLoadRect (View.loadsAt_vmem h_S512x2048))
  let v2 : Vec F S2048x2048 .bf16 ← Prog.lift (.load arg2 rW.toLoadRect (View.loadsAt_vmem h_S2048x2048))
  let v5 : Vec F S1x2048 .f32 ← Prog.lift (.load arg3 rB.toLoadRect (View.loadsAt_vmem h_S1x2048))
  let _ : Vec F S512x2048 e ← Prog.lift (.load arg4 rX.toLoadRect (View.loadsAt_vmem h_S512x2048))
  Prog.lift (.store arg4 rX (pay v0 v2 v5) Finset.univ hst (.inl rfl))
  pure ⟨⟩

theorem sound_linBody (c : Dev nD) (E : Set ℕ) (arg1 : Memref sig .tc .vmem S512x2048 .bf16) (arg2 : Memref sig .tc .vmem S2048x2048 .bf16) (arg3 : Memref sig .tc .vmem S1x2048 .f32)
    (arg4 : Memref sig .tc .vmem S512x2048 e) (hst : (arg4.access rX).Stores Finset.univ)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outLin pay x0 x1 x2)) -∗ K ⟨⟩))
      ⊢ wp frame (wpE (defs₀ (F := F)) Variants.none c none) E (linBody pay arg1 arg2 arg3 arg4 hst) K := by
  unfold linBody owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled [⟨rX, _⟩] S512x2048.size (by rfl))

end

end Cert.KernelIdeal.Hand

end
-- ==== Proof.KI.Lin0.lean ====
import proofs.«418154_j20864951124059_3_alg».proof.Proof.KI.LinBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outR0 (x0 : Vec F S512x2048 .bf16) (x1 : Vec F S2048x2048 .bf16) (x2 : Vec F S1x2048 .f32) : Vec F S512x2048 .bf16 :=
  outLin k0_pay1 x0 x1 x2

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => outR0 (iblkR0 V c 0 t) (iblkR0 V c 1 t) (iblkR0 V c 2 t)
  Φ _ := Pipeline.ΦA spec0 c
  q _ := fullShare
  owed _ := 0

theorem A_eqR0 (c : Dev nD) (w : Fin cfg0.W) : (datR0 V c).A w = V c (Pipeline.arrRef spec0 w) := rfl

theorem afterR0_3 (c : Dev nD) (t : Fin cfg0.N) : (datR0 V c).after 3 t = outR0 (iblkR0 V c 0 t) (iblkR0 V c 1 t) (iblkR0 V c 2 t) := by dsimp only [datR0]

theorem beforeR0 (c : Dev nD) (t : Fin cfg0.N) : (∀ d, (datR0 V c).before 0 t d = iblkR0 V c 0 t) ∧ (∀ d, (datR0 V c).before 1 t d = iblkR0 V c 1 t) ∧ (∀ d, (datR0 V c).before 2 t d = iblkR0 V c 2 t) := by
  refine ⟨fun d => ?_, fun d => ?_, fun d => ?_⟩ <;> exact ((datR0 V c).before_in_eq_fetched _ rfl (fun _ => rfl) (fun _ _ _ => rfl) (fun _ => rfl) t d).trans rfl

theorem kernelR0_eq (t : Fin cfg0.N) : ∃ hst, bodyAt0 (F := F) t = linBody k0_pay1 (st0_0 t) (st0_1 t) (st0_2 t) (st0_3 t) hst :=
  ⟨_, by unfold bodyAt0; rw [cc0__linear_kernel_eq_skeleton]; rfl⟩

theorem body_obligationR0 (c : Dev nD) : BodyObligation (datR0 (F := F) V c) (defs₀ (F := F)) Variants.none () Set.univ := fun t => by
  rw [bigSep_W0, bigSep_W0]
  simp only [(beforeR0 V c t).1, (beforeR0 V c t).2.1, (beforeR0 V c t).2.2]
  show _ ⊢ wp frame (wpE (defs₀ (F := F)) Variants.none c none) Set.univ (bodyAt0 t) _
  obtain ⟨hst, hk⟩ := kernelR0_eq (F := F) t
  rw [hk, show (datR0 V c).owesAt () t.succ = (datR0 V c).owesAt () t.castSucc from rfl]
  dsimp only [datR0, outR0]
  iintro ⟨HΦ, Ho, ⟨%d0, H0⟩, ⟨%d1, H1⟩, ⟨%d2, H2⟩, ⟨%d3, H3⟩⟩
  iapply (sound_linBody k0_pay1 c Set.univ _ _ _ _ hst (iblkR0 V c 0 t) (iblkR0 V c 1 t) (iblkR0 V c 2 t) _)
  iframe H0 H1 H2
  isplitl [H3]; · iexists _; iexact H3
  iintro ⟨H0, H1, H2, H3⟩
  iframe

end

end Cert.KernelIdeal.Hand

end
-- ==== Proof.KI.Lin1.lean ====
import proofs.«418154_j20864951124059_3_alg».proof.Proof.KI.LinBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outR1 (x0 : Vec F S512x2048 .bf16) (x1 : Vec F S2048x2048 .bf16) (x2 : Vec F S1x2048 .f32) : Vec F S512x2048 .f32 :=
  outLin k1_pay1 x0 x1 x2

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => outR1 (iblkR1 V c 0 t) (iblkR1 V c 1 t) (iblkR1 V c 2 t)
  Φ _ := Pipeline.ΦA spec1 c
  q _ := fullShare
  owed _ := 0

theorem A_eqR1 (c : Dev nD) (w : Fin cfg1.W) : (datR1 V c).A w = V c (Pipeline.arrRef spec1 w) := rfl

theorem afterR1_3 (c : Dev nD) (t : Fin cfg1.N) : (datR1 V c).after 3 t = outR1 (iblkR1 V c 0 t) (iblkR1 V c 1 t) (iblkR1 V c 2 t) := by dsimp only [datR1]

theorem beforeR1 (c : Dev nD) (t : Fin cfg1.N) : (∀ d, (datR1 V c).before 0 t d = iblkR1 V c 0 t) ∧ (∀ d, (datR1 V c).before 1 t d = iblkR1 V c 1 t) ∧ (∀ d, (datR1 V c).before 2 t d = iblkR1 V c 2 t) := by
  refine ⟨fun d => ?_, fun d => ?_, fun d => ?_⟩ <;> exact ((datR1 V c).before_in_eq_fetched _ rfl (fun _ => rfl) (fun _ _ _ => rfl) (fun _ => rfl) t d).trans rfl

theorem kernelR1_eq (t : Fin cfg1.N) : ∃ hst, bodyAt1 (F := F) t = linBody k1_pay1 (st1_0 t) (st1_1 t) (st1_2 t) (st1_3 t) hst :=
  ⟨_, by unfold bodyAt1; rw [cc1__linear_kernel_eq_skeleton]; rfl⟩

theorem body_obligationR1 (c : Dev nD) : BodyObligation (datR1 (F := F) V c) (defs₀ (F := F)) Variants.none () Set.univ := fun t => by
  rw [bigSep_W1, bigSep_W1]
  simp only [(beforeR1 V c t).1, (beforeR1 V c t).2.1, (beforeR1 V c t).2.2]
  show _ ⊢ wp frame (wpE (defs₀ (F := F)) Variants.none c none) Set.univ (bodyAt1 t) _
  obtain ⟨hst, hk⟩ := kernelR1_eq (F := F) t
  rw [hk, show (datR1 V c).owesAt () t.succ = (datR1 V c).owesAt () t.castSucc from rfl]
  dsimp only [datR1, outR1]
  iintro ⟨HΦ, Ho, ⟨%d0, H0⟩, ⟨%d1, H1⟩, ⟨%d2, H2⟩, ⟨%d3, H3⟩⟩
  iapply (sound_linBody k1_pay1 c Set.univ _ _ _ _ hst (iblkR1 V c 0 t) (iblkR1 V c 1 t) (iblkR1 V c 2 t) _)
  iframe H0 H1 H2
  isplitl [H3]; · iexists _; iexact H3
  iintro ⟨H0, H1, H2, H3⟩
  iframe

end

end Cert.KernelIdeal.Hand

end
-- ==== Proof.KI.Lin2.lean ====
import proofs.«418154_j20864951124059_3_alg».proof.Proof.KI.LinBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outR2 (x0 : Vec F S512x2048 .bf16) (x1 : Vec F S2048x2048 .bf16) (x2 : Vec F S1x2048 .f32) : Vec F S512x2048 .f32 :=
  outLin k2_pay1 x0 x1 x2

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => outR2 (iblkR2 V c 0 t) (iblkR2 V c 1 t) (iblkR2 V c 2 t)
  Φ _ := Pipeline.ΦA spec2 c
  q _ := fullShare
  owed _ := 0

theorem A_eqR2 (c : Dev nD) (w : Fin cfg2.W) : (datR2 V c).A w = V c (Pipeline.arrRef spec2 w) := rfl

theorem afterR2_3 (c : Dev nD) (t : Fin cfg2.N) : (datR2 V c).after 3 t = outR2 (iblkR2 V c 0 t) (iblkR2 V c 1 t) (iblkR2 V c 2 t) := by dsimp only [datR2]

theorem beforeR2 (c : Dev nD) (t : Fin cfg2.N) : (∀ d, (datR2 V c).before 0 t d = iblkR2 V c 0 t) ∧ (∀ d, (datR2 V c).before 1 t d = iblkR2 V c 1 t) ∧ (∀ d, (datR2 V c).before 2 t d = iblkR2 V c 2 t) := by
  refine ⟨fun d => ?_, fun d => ?_, fun d => ?_⟩ <;> exact ((datR2 V c).before_in_eq_fetched _ rfl (fun _ => rfl) (fun _ _ _ => rfl) (fun _ => rfl) t d).trans rfl

theorem kernelR2_eq (t : Fin cfg2.N) : ∃ hst, bodyAt2 (F := F) t = linBody k2_pay1 (st2_0 t) (st2_1 t) (st2_2 t) (st2_3 t) hst :=
  ⟨_, by unfold bodyAt2; rw [cc2__linear_kernel_eq_skeleton]; rfl⟩

theorem body_obligationR2 (c : Dev nD) : BodyObligation (datR2 (F := F) V c) (defs₀ (F := F)) Variants.none () Set.univ := fun t => by
  rw [bigSep_W2, bigSep_W2]
  simp only [(beforeR2 V c t).1, (beforeR2 V c t).2.1, (beforeR2 V c t).2.2]
  show _ ⊢ wp frame (wpE (defs₀ (F := F)) Variants.none c none) Set.univ (bodyAt2 t) _
  obtain ⟨hst, hk⟩ := kernelR2_eq (F := F) t
  rw [hk, show (datR2 V c).owesAt () t.succ = (datR2 V c).owesAt () t.castSucc from rfl]
  dsimp only [datR2, outR2]
  iintro ⟨HΦ, Ho, ⟨%d0, H0⟩, ⟨%d1, H1⟩, ⟨%d2, H2⟩, ⟨%d3, H3⟩⟩
  iapply (sound_linBody k2_pay1 c Set.univ _ _ _ _ hst (iblkR2 V c 0 t) (iblkR2 V c 1 t) (iblkR2 V c 2 t) _)
  iframe H0 H1 H2
  isplitl [H3]; · iexists _; iexact H3
  iintro ⟨H0, H1, H2, H3⟩
  iframe

end

end Cert.KernelIdeal.Hand

end
-- ==== Proof.KI.FoldA.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import proofs.«418154_j20864951124059_3_alg».proof.Proof.KI.Lin0
import proofs.«418154_j20864951124059_3_alg».proof.Proof.KI.Lin1
import proofs.«418154_j20864951124059_3_alg».proof.Proof.KI.Lin2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- what every array holds at each boundary between the program's items, up to the attention region

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev U0 : Dev nD → Valuation τ sig (Elt F) := fun c b => m (c, b)

abbrev U1 : Dev nD → Valuation τ sig (Elt F) := fun c => StableHlo.after hostOps0 (U0 m c)
abbrev E1 : (c : Dev nD) → (b : Ref sig .tc) → Buf (Elt F) ((c : Thread nD τ).loc b) := fun c b => U1 m c b

def U2 (c : Dev nD) : Valuation τ sig (Elt F) :=
  Pipeline.withArrays spec0 c (U1 m c) fun w => (datR0 (E1 m) c).arrAt w cfg0.N
theorem U2_arr (c : Dev nD) (w : Fin cfg0.W) :
    U2 m c (Proc.devRef .tc (Pipeline.arrRef spec0 w)) = (datR0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b

abbrev U3 : Dev nD → Valuation τ sig (Elt F) := fun c => StableHlo.after hostOps1 (U2 m c)
abbrev E3 : (c : Dev nD) → (b : Ref sig .tc) → Buf (Elt F) ((c : Thread nD τ).loc b) := fun c b => U3 m c b

def U4 (c : Dev nD) : Valuation τ sig (Elt F) :=
  Pipeline.withArrays spec1 c (U3 m c) fun w => (datR1 (E3 m) c).arrAt w cfg1.N
theorem U4_arr (c : Dev nD) (w : Fin cfg1.W) :
    U4 m c (Proc.devRef .tc (Pipeline.arrRef spec1 w)) = (datR1 (E3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev E4 : (c : Dev nD) → (b : Ref sig .tc) → Buf (Elt F) ((c : Thread nD τ).loc b) := fun c b => U4 m c b

abbrev U5 : Dev nD → Valuation τ sig (Elt F) := fun c => StableHlo.after hostOps2 (U4 m c)
abbrev E5 : (c : Dev nD) → (b : Ref sig .tc) → Buf (Elt F) ((c : Thread nD τ).loc b) := fun c b => U5 m c b

def U6 (c : Dev nD) : Valuation τ sig (Elt F) :=
  Pipeline.withArrays spec2 c (U5 m c) fun w => (datR2 (E5 m) c).arrAt w cfg2.N
theorem U6_arr (c : Dev nD) (w : Fin cfg2.W) :
    U6 m c (Proc.devRef .tc (Pipeline.arrRef spec2 w)) = (datR2 (E5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
abbrev E6 : (c : Dev nD) → (b : Ref sig .tc) → Buf (Elt F) ((c : Thread nD τ).loc b) := fun c b => U6 m c b

abbrev U7 : Dev nD → Valuation τ sig (Elt F) := fun c => StableHlo.after hostOps3 (U6 m c)
abbrev E7 : (c : Dev nD) → (b : Ref sig .tc) → Buf (Elt F) ((c : Thread nD τ).loc b) := fun c b => U7 m c b

end Cert.KernelIdeal.Hand

end
-- ==== Proof.KI.Lin4.lean ====
import proofs.«418154_j20864951124059_3_alg».proof.Proof.KI.LinBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def outR4 (x0 : Vec F S512x2048 .bf16) (x1 : Vec F S2048x2048 .bf16) (x2 : Vec F S1x2048 .f32) : Vec F S512x2048 .f32 :=
  outLin k4_pay1 x0 x1 x2

def datR4 (c : Dev nD) : Dat τ (Elt F) Unit ℕ (UR sig nD τ) ℕ cfg4 c where
  A w := V c (Pipeline.arrRef spec4 w)
  after w t := match w with
    | ⟨0, _⟩ => iblkR4 V c 0 t
    | ⟨1, _⟩ => iblkR4 V c 1 t
    | ⟨2, _⟩ => iblkR4 V c 2 t
    | ⟨3, _⟩ => outR4 (iblkR4 V c 0 t) (iblkR4 V c 1 t) (iblkR4 V c 2 t)
  Φ _ := Pipeline.ΦA spec4 c
  q _ := fullShare
  owed _ := 0

theorem A_eqR4 (c : Dev nD) (w : Fin cfg4.W) : (datR4 V c).A w = V c (Pipeline.arrRef spec4 w) := rfl

theorem afterR4_3 (c : Dev nD) (t : Fin cfg4.N) : (datR4 V c).after 3 t = outR4 (iblkR4 V c 0 t) (iblkR4 V c 1 t) (iblkR4 V c 2 t) := by dsimp only [datR4]

theorem beforeR4 (c : Dev nD) (t : Fin cfg4.N) : (∀ d, (datR4 V c).before 0 t d = iblkR4 V c 0 t) ∧ (∀ d, (datR4 V c).before 1 t d = iblkR4 V c 1 t) ∧ (∀ d, (datR4 V c).before 2 t d = iblkR4 V c 2 t) := by
  refine ⟨fun d => ?_, fun d => ?_, fun d => ?_⟩ <;> exact ((datR4 V c).before_in_eq_fetched _ rfl (fun _ => rfl) (fun _ _ _ => rfl) (fun _ => rfl) t d).trans rfl

theorem kernelR4_eq (t : Fin cfg4.N) : ∃ hst, bodyAt4 (F := F) t = linBody k4_pay1 (st4_0 t) (st4_1 t) (st4_2 t) (st4_3 t) hst :=
  ⟨_, by unfold bodyAt4; rw [cc4__linear_kernel_eq_skeleton]; rfl⟩

theorem body_obligationR4 (c : Dev nD) : BodyObligation (datR4 (F := F) V c) (defs₀ (F := F)) Variants.none () Set.univ := fun t => by
  rw [bigSep_W4, bigSep_W4]
  simp only [(beforeR4 V c t).1, (beforeR4 V c t).2.1, (beforeR4 V c t).2.2]
  show _ ⊢ wp frame (wpE (defs₀ (F := F)) Variants.none c none) Set.univ (bodyAt4 t) _
  obtain ⟨hst, hk⟩ := kernelR4_eq (F := F) t
  rw [hk, show (datR4 V c).owesAt () t.succ = (datR4 V c).owesAt () t.castSucc from rfl]
  dsimp only [datR4, outR4]
  iintro ⟨HΦ, Ho, ⟨%d0, H0⟩, ⟨%d1, H1⟩, ⟨%d2, H2⟩, ⟨%d3, H3⟩⟩
  iapply (sound_linBody k4_pay1 c Set.univ _ _ _ _ hst (iblkR4 V c 0 t) (iblkR4 V c 1 t) (iblkR4 V c 2 t) _)
  iframe H0 H1 H2
  isplitl [H3]; · iexists _; iexact H3
  iintro ⟨H0, H1, H2, H3⟩
  iframe

end

end Cert.KernelIdeal.Hand

end
-- ==== Proof.KI.AttnRuns.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the attention body's two branch conditions as arithmetic on the point's position (first chunk: position ≡ 0, last chunk: ≡ 3 mod 4),
-- and the points at which the output block is stored

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 2).val) 0#32)) 0#32) = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1

theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S2048x128 .bf16 := (Memref.whole cc3_stg3_0 : Memref sig .tc .vmem S2048x128 .bf16).view

abbrev ms3_0 (t : Fin cfg3.N) : Memref sig .tc .vmem S2048x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .bf16 := win3_3.stage (cfg3.slots t 3)
abbrev hs3_3 (t : Fin cfg3.N) : (ms3_3 t).IsWhole := hstage3_3 ((cfg3.slots t 3).cast nbuf3_3)

abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x128 .f32 := Memref.whole cc3_scratch2

abbrev VS3_0 : View sig .tc .vmem S2048x1 .f32 := scM3_0.view
abbrev VS3_1 : View sig .tc .vmem S2048x1 .f32 := scM3_1.view
abbrev VS3_2 : View sig .tc .vmem S2048x128 .f32 := scM3_2.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.KernelIdeal.Hand

end
-- ==== Proof.KI.AttnRun.lean ====
import proofs.«418154_j20864951124059_3_alg».proof.Proof.KI.AttnRuns
import Idealize.ShloMosaic.Lib.Pipeline.Value

-- the attention body run once per case, with what it leaves as explicit functions of what it found

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the zero offset of a whole rectangle, however spelt
theorem hz_S2048x1 : (![0, 0] : Fin S2048x1.rank → ℕ) = fun _ => 0 := by funext a; fin_cases a <;> rfl
theorem hz_S2048x128 : (![0, 0] : Fin S2048x128.rank → ℕ) = fun _ => 0 := by funext a; fin_cases a <;> rfl
theorem hz_S1x1x1024x128 : (![0, 0, 0, 0] : Fin S1x1x1024x128.rank → ℕ) = fun _ => 0 := by funext a; fin_cases a <;> rfl

-- one key chunk's update: (quotient block, new row maximum, new row sum, new weighted sum) from the chunk's
-- queries, keys, values and the old maximum, sum and weighted sum
def upd3 (x0 : Vec F S2048x128 .bf16) (x1 x2 : Vec F S1x1x1024x128 .f32) (m l : Vec F S2048x1 .f32) (a : Vec F S2048x128 .f32) :
    Vec F S2048x128 .bf16 × Vec F S2048x1 .f32 × Vec F S2048x1 .f32 × Vec F S2048x128 .f32 :=
  (k3_pay4 (k3_pay2 (k3_pay8 x2) (k3_pay11 x0 x1 m m) (k3_pay13 x0 x1 m) a) (k3_pay1 (k3_pay14 x0 x1 m m l)),
   k3_pay3 (k3_pay10 x0 x1 m), k3_pay1 (k3_pay14 x0 x1 m m l), k3_pay2 (k3_pay8 x2) (k3_pay11 x0 x1 m m) (k3_pay13 x0 x1 m) a)

section
variable (c : Dev nD) (i : grid3.Coords) (arg3 : Memref sig .tc .vmem S2048x128 .bf16) (harg3 : arg3.IsWhole) (arg4 : Memref sig .tc .vmem S1x1x1024x128 .f32) (harg4 : arg4.IsWhole) (arg5 : Memref sig .tc .vmem S1x1x1024x128 .f32) (harg5 : arg5.IsWhole) (arg6 : Memref sig .tc .vmem S2048x128 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole)
  (x0 : Vec F S2048x128 .bf16) (x1 x2 : Vec F S1x1x1024x128 .f32) (xs0 xs1 : Vec F S2048x1 .f32) (xs2 : Vec F S2048x128 .f32) (xi3 : Vec F S2048x128 .bf16) (E : Set ℕ)

-- first chunk: the old state is overwritten by (-∞, 0, 0) before it is read
theorem run3_A (hc0 : cond3_0 i) (hc1 : ¬cond3_1 i) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (upd3 x0 x1 x2 k3_pay5 k3_pay6 k3_pay7).2.1 ∗ owns (c : Thread nD τ) arg8 fullShare (upd3 x0 x1 x2 k3_pay5 k3_pay6 k3_pay7).2.2.1 ∗ owns (c : Thread nD τ) arg9 fullShare (upd3 x0 x1 x2 k3_pay5 k3_pay6 k3_pay7).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_cons_unit_zero (S := S2048x1) hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_cons_unit_zero (S := S2048x1) hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_cons_unit_zero (S := S2048x128) hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

-- middle chunk: the update of the state the chunk before left
theorem run3_B (hc0 : ¬cond3_0 i) (hc1 : ¬cond3_1 i) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (upd3 x0 x1 x2 xs0 xs1 xs2).2.1 ∗ owns (c : Thread nD τ) arg8 fullShare (upd3 x0 x1 x2 xs0 xs1 xs2).2.2.1 ∗ owns (c : Thread nD τ) arg9 fullShare (upd3 x0 x1 x2 xs0 xs1 xs2).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5; obtain rfl := harg6.eq_unread hf6
  obtain rfl := harg7.eq_unread hfs0; obtain rfl := harg8.eq_unread hfs1; obtain rfl := harg9.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_unit_zero hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

-- last chunk: the same update, and the quotient block is stored
theorem run3_C (hc0 : ¬cond3_0 i) (hc1 : cond3_1 i) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
        ∗ (iprop(owns (c : Thread nD τ) arg3 fullShare x0 ∗ owns (c : Thread nD τ) arg4 fullShare x1 ∗ owns (c : Thread nD τ) arg5 fullShare x2 ∗ owns (c : Thread nD τ) arg6 fullShare (upd3 x0 x1 x2 xs0 xs1 xs2).1 ∗ owns (c : Thread nD τ) arg7 fullShare (upd3 x0 x1 x2 xs0 xs1 xs2).2.1 ∗ owns (c : Thread nD τ) arg8 fullShare (upd3 x0 x1 x2 xs0 xs1 xs2).2.2.1 ∗ owns (c : Thread nD τ) arg9 fullShare (upd3 x0 x1 x2 xs0 xs1 xs2).2.2.2) -∗ K ⟨⟩))
      ⊢ wp frame (wpE (defs₀ (F := F)) Variants.none c none) E (cc3__attn_kernel i arg3 harg3 arg4 harg4 arg5 harg5 arg6 harg6 arg7 harg7 arg8 harg8 arg9 harg9) K := by
  simp only [cc3__attn_kernel_eq_skeleton]; unfold cc3__attn_kernel_skel
  unfold owns
  iintro ⟨⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  obtain rfl := harg3.eq_unread hf3; obtain rfl := harg4.eq_unread hf4; obtain rfl := harg5.eq_unread hf5
  obtain rfl := harg7.eq_unread hfs0; obtain rfl := harg8.eq_unread hfs1; obtain rfl := harg9.eq_unread hfs2
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (fun y => View.cover_of_tiledL _ S2048x128.size (by sl_kernel_rfl) y)]
    sl_unfold_words
    rw [View.canon_unit_zero hz_S2048x128]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS0]
  · iexists _; isplitr; swap; · iexact HS0
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  isplitl [HS1]
  · iexists _; isplitr; swap; · iexact HS1
    ipureintro
    rw [View.read_writes_eq_canon _ _ _ (fun y => View.cover_of_tiledL _ S2048x1.size (by sl_kernel_rfl) y)]
    sl_unfold_words
    rw [View.canon_unit_zero hz_S2048x1]
    simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]
  iexists _; isplitr; swap; · iexact HS2
  ipureintro
  rw [View.read_writes_eq_canon _ _ _ (fun y => View.cover_of_tiledL _ S2048x128.size (by sl_kernel_rfl) y)]
  sl_unfold_words
  rw [View.canon_unit_zero hz_S2048x128]
  simp only [upd3, View.readAt_eq_ld, Memref.IsWhole.read_unread, View.ld_unit_zero (S := S2048x1) hz_S2048x1, View.ld_unit_zero (S := S2048x128) hz_S2048x128, View.ld_unit_zero (S := S1x1x1024x128) hz_S1x1x1024x128, View.readCov_unit_zero (S := S2048x1) _ hz_S2048x1, View.readCov_unit_zero (S := S2048x128) _ hz_S2048x128]

end
end Cert.KernelIdeal.Hand
end
-- ==== Proof.KI.Attn.lean ====
import proofs.«418154_j20864951124059_3_alg».proof.Proof.KI.AttnRun

-- the attention region's proof data: the state after each point, the invariant between points, and the body at each of the three cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblkR3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- the state after position n: the update of the point's blocks, from (-∞, 0, 0) at a first chunk, else from the point before
def outsAtR3 (c : Dev nD) : (n : ℕ) → n < cfg3.N → Vec F S2048x128 .bf16 × Vec F S2048x1 .f32 × Vec F S2048x1 .f32 × Vec F S2048x128 .f32
  | 0, hn => upd3 (iblkR3 V c 0 ⟨0, hn⟩) (iblkR3 V c 1 ⟨0, hn⟩) (iblkR3 V c 2 ⟨0, hn⟩) k3_pay5 k3_pay6 k3_pay7
  | n + 1, hn =>
    if (n + 1) % 4 = 0 then upd3 (iblkR3 V c 0 ⟨n + 1, hn⟩) (iblkR3 V c 1 ⟨n + 1, hn⟩) (iblkR3 V c 2 ⟨n + 1, hn⟩) k3_pay5 k3_pay6 k3_pay7
    else upd3 (iblkR3 V c 0 ⟨n + 1, hn⟩) (iblkR3 V c 1 ⟨n + 1, hn⟩) (iblkR3 V c 2 ⟨n + 1, hn⟩) (outsAtR3 c n (Nat.lt_of_succ_lt hn)).2.1 (outsAtR3 c n (Nat.lt_of_succ_lt hn)).2.2.1 (outsAtR3 c n (Nat.lt_of_succ_lt hn)).2.2.2

abbrev prevR3 (c : Dev nD) (t : Fin cfg3.N) := outsAtR3 V c (t.val - 1) (Nat.lt_of_le_of_lt (Nat.sub_le _ _) t.isLt)

theorem outsAtR3_first (c : Dev nD) (t : Fin cfg3.N) (h0 : t.val % 4 = 0) :
    outsAtR3 V c t.val t.isLt = upd3 (iblkR3 V c 0 t) (iblkR3 V c 1 t) (iblkR3 V c 2 t) k3_pay5 k3_pay6 k3_pay7 := by
  obtain ⟨n, hn⟩ := t
  cases n with
  | zero => rfl
  | succ n => exact if_pos h0

theorem outsAtR3_next (c : Dev nD) (t : Fin cfg3.N) (h0 : ¬t.val % 4 = 0) :
    outsAtR3 V c t.val t.isLt = upd3 (iblkR3 V c 0 t) (iblkR3 V c 1 t) (iblkR3 V c 2 t) (prevR3 V c t).2.1 (prevR3 V c t).2.2.1 (prevR3 V c t).2.2.2 := by
  obtain ⟨n, hn⟩ := t
  cases n with
  | zero => exact absurd (Nat.zero_mod _) h0
  | succ n => exact if_neg h0

-- between two points the invariant holds the state the earlier one left
def PhiSR3 (c : Dev nD) : (n : ℕ) → n ≤ cfg3.N → sProp 𝕄
  | 0, _ => Pipeline.ΦA spec3 c
  | n + 1, hn => iprop(iprop(iprop(owns (c : Thread nD τ) scM3_0 fullShare (outsAtR3 V c n hn).2.1 ∗ owns (c : Thread nD τ) scM3_1 fullShare (outsAtR3 V c n hn).2.2.1 ∗ owns (c : Thread nD τ) scM3_2 fullShare (outsAtR3 V c n hn).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiSR3_zero (c : Dev nD) (n : ℕ) (h : n ≤ cfg3.N) (hz : n = 0) : PhiSR3 V c n h = Pipeline.ΦA spec3 c := by
  subst hz; rfl

theorem PhiSR3_succ (c : Dev nD) (n : ℕ) (hn : n < cfg3.N) :
    PhiSR3 V c (n + 1) hn = iprop(iprop(iprop(owns (c : Thread nD τ) scM3_0 fullShare (outsAtR3 V c n hn).2.1 ∗ owns (c : Thread nD τ) scM3_1 fullShare (outsAtR3 V c n hn).2.2.1 ∗ owns (c : Thread nD τ) scM3_2 fullShare (outsAtR3 V c n hn).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiSR3_pos (c : Dev nD) (n : ℕ) (h : n ≤ cfg3.N) (hz : n ≠ 0) :
    PhiSR3 V c n h = iprop(iprop(iprop(owns (c : Thread nD τ) scM3_0 fullShare (outsAtR3 V c (n - 1) (by omega)).2.1 ∗ owns (c : Thread nD τ) scM3_1 fullShare (outsAtR3 V c (n - 1) (by omega)).2.2.1 ∗ owns (c : Thread nD τ) scM3_2 fullShare (outsAtR3 V c (n - 1) (by omega)).2.2.2)
        ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

-- a known state is in particular some state
theorem PhiSR3_forget (c : Dev nD) (n : ℕ) (h : n ≤ cfg3.N) : PhiSR3 V c n h ⊢ Pipeline.ΦA spec3 c := by
  cases n with
  | zero => exact Idealize.SL.BI.Entails.refl _
  | succ n =>
    rw [PhiSR3_succ, PhiA3_eq]
    iintro ⟨⟨⟨HS0, HS1, HS2⟩, HR⟩, Hg⟩
    iframe
    isplitl [HS0]; · iexists _; iexact HS0
    isplitl [HS1]; · iexists _; iexact HS1
    iexists _; iexact HS2

def datR3 (c : Dev nD) : Dat τ (Elt F) Unit ℕ (UR sig nD τ) ℕ cfg3 c where
  A w := V c (Pipeline.arrRef spec3 w)
  after w t := match w with
    | ⟨0, _⟩ => iblkR3 V c 0 t
    | ⟨1, _⟩ => iblkR3 V c 1 t
    | ⟨2, _⟩ => iblkR3 V c 2 t
    | ⟨3, _⟩ => (outsAtR3 V c t.val t.isLt).1
  Φ t := PhiSR3 V c t.val (Nat.le_of_lt_succ t.isLt)
  q _ := fullShare
  owed _ := 0

theorem A_eqR3 (c : Dev nD) (w : Fin cfg3.W) : (datR3 V c).A w = V c (Pipeline.arrRef spec3 w) := by
  dsimp only [datR3]

theorem PhiSR3_castSucc (c : Dev nD) (t : Fin cfg3.N) :
    (datR3 V c).Φ t.castSucc = PhiSR3 V c t.val (Nat.le_of_lt t.isLt) := by
  dsimp only [datR3]; simp only [Fin.coe_castSucc]

theorem afterR3_3 (c : Dev nD) (t : Fin cfg3.N) : (datR3 V c).after 3 t = (outsAtR3 V c t.val t.isLt).1 := rfl

theorem beforeR3 (c : Dev nD) (t : Fin cfg3.N) : (∀ d, (datR3 V c).before 0 t d = iblkR3 V c 0 t) ∧ (∀ d, (datR3 V c).before 1 t d = iblkR3 V c 1 t) ∧ (∀ d, (datR3 V c).before 2 t d = iblkR3 V c 2 t) := by
  refine ⟨fun d => ?_, fun d => ?_, fun d => ?_⟩ <;> exact ((datR3 V c).before_in_eq_fetched _ rfl (fun _ => rfl) (fun _ _ _ => rfl) (fun _ => rfl) t d).trans rfl

theorem leavesR3 (c : Dev nD) (t : Fin cfg3.N) : (datR3 V c).leavesExact 0 t = owns (c : Thread nD τ) (ms3_0 t) fullShare (iblkR3 V c 0 t)
    ∧ (datR3 V c).leavesExact 1 t = owns (c : Thread nD τ) (ms3_1 t) fullShare (iblkR3 V c 1 t)
    ∧ (datR3 V c).leavesExact 2 t = owns (c : Thread nD τ) (ms3_2 t) fullShare (iblkR3 V c 2 t) := by
  refine ⟨?_, ?_, ?_⟩ <;> unfold Dat.leavesExact
  · rw [liveAt3_0 t]; rfl
  · rw [liveAt3_1 t]; rfl
  · rw [liveAt3_2 t]; rfl

theorem leavesR3_3_idle (c : Dev nD) (t : Fin cfg3.N) (h1 : ¬t.val % 4 = 3) :
    (datR3 V c).leavesExact 3 t = iprop(∃ d, owns (c : Thread nD τ) (ms3_3 t) fullShare ((datR3 V c).before 3 t d)) := by
  by_cases h0 : t.val % 4 = 0
  · exact Dat.leavesExact_idle (datR3 V c) 3 t (idleAt3_3_A t ((hcond3_0 t).mpr h0) (fun h => h1 ((hcond3_1 t).mp h))) (noFlush3_3_A t ((hcond3_0 t).mpr h0) (fun h => h1 ((hcond3_1 t).mp h)))
  · exact Dat.leavesExact_idle (datR3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))

theorem leavesR3_3_live (c : Dev nD) (t : Fin cfg3.N) (h0 : ¬t.val % 4 = 0) (h1 : t.val % 4 = 3) :
    (datR3 V c).leavesExact 3 t = owns (c : Thread nD τ) (ms3_3 t) fullShare (outsAtR3 V c t.val t.isLt).1 := by
  unfold Dat.leavesExact; rw [liveAt3_3_C t (fun h => h0 ((hcond3_0 t).mp h)) ((hcond3_1 t).mpr h1)]; rfl

def bodyPreR3 (c : Dev nD) (t : Fin cfg3.N) : sProp 𝕄 :=
  iprop((datR3 V c).Φ t.castSucc ∗ (datR3 V c).owesAt () t.castSucc
    ∗ (∃ d, owns (c : Thread nD τ) (ms3_0 t) fullShare ((datR3 V c).before 0 t d))
    ∗ (∃ d, owns (c : Thread nD τ) (ms3_1 t) fullShare ((datR3 V c).before 1 t d))
    ∗ (∃ d, owns (c : Thread nD τ) (ms3_2 t) fullShare ((datR3 V c).before 2 t d))
    ∗ (∃ d, owns (c : Thread nD τ) (ms3_3 t) fullShare ((datR3 V c).before 3 t d)))

def bodyPostR3 (c : Dev nD) (t : Fin cfg3.N) : sProp 𝕄 :=
  iprop((datR3 V c).Φ t.succ ∗ (datR3 V c).owesAt () t.succ
    ∗ (datR3 V c).leavesExact 0 t
    ∗ (datR3 V c).leavesExact 1 t
    ∗ (datR3 V c).leavesExact 2 t
    ∗ (datR3 V c).leavesExact 3 t)

-- the position modulo 4 selects the case
theorem sound_bodyR3 (c : Dev nD) (t : Fin cfg3.N) :
    bodyPreR3 V c t ⊢ wp frame (wpE (defs₀ (F := F)) Variants.none c none) Set.univ (bodyAt3 t) (fun _ => bodyPostR3 V c t) := by
  unfold bodyPreR3 bodyPostR3 bodyAt3
  simp only [(beforeR3 V c t).1, (beforeR3 V c t).2.1, (beforeR3 V c t).2.2]
  rw [show (datR3 V c).owesAt () t.succ = (datR3 V c).owesAt () t.castSucc from rfl,
    show (datR3 V c).Φ t.succ = PhiSR3 V c (t.val + 1) t.isLt from rfl, PhiSR3_succ,
    (leavesR3 V c t).1, (leavesR3 V c t).2.1, (leavesR3 V c t).2.2, PhiSR3_castSucc V c t]
  by_cases h0 : t.val % 4 = 0
  · have h1 : ¬t.val % 4 = 3 := by omega
    rw [leavesR3_3_idle V c t h1, outsAtR3_first V c t h0]
    refine (sep_mono_left (PhiSR3_forget V c _ _)).trans ?_
    rw [PhiA3_eq]
    iintro ⟨⟨⟨⟨HS0, HS1, HS2⟩, HR⟩, Hg⟩, Ho, ⟨%d0, H0⟩, ⟨%d1, H1⟩, ⟨%d2, H2⟩, ⟨%d3, H3⟩⟩
    iapply (run3_A c (grid3.coords t) _ _ _ _ _ _ _ _ _ _ _ _ _ _ (iblkR3 V c 0 t) (iblkR3 V c 1 t) (iblkR3 V c 2 t) _ Set.univ ((hcond3_0 t).mpr h0) (fun h => h1 ((hcond3_1 t).mp h)) _)
    iframe H0 H1 H2 H3 HS0 HS1 HS2
    iintro ⟨H0, H1, H2, H3, HS0, HS1, HS2⟩
    iframe H0 H1 H2 HS0 HS1 HS2 HR Hg Ho
    iexists _; iexact H3
  have hz : t.val ≠ 0 := fun e => h0 (by rw [e])
  by_cases h1 : t.val % 4 = 3
  · rw [leavesR3_3_live V c t h0 h1, outsAtR3_next V c t h0, PhiSR3_pos V c _ _ hz]
    iintro ⟨⟨⟨⟨HS0, HS1, HS2⟩, HR⟩, Hg⟩, Ho, ⟨%d0, H0⟩, ⟨%d1, H1⟩, ⟨%d2, H2⟩, ⟨%d3, H3⟩⟩
    iapply (run3_C c (grid3.coords t) _ _ _ _ _ _ _ _ _ _ _ _ _ _ (iblkR3 V c 0 t) (iblkR3 V c 1 t) (iblkR3 V c 2 t) _ _ _ Set.univ (fun h => h0 ((hcond3_0 t).mp h)) ((hcond3_1 t).mpr h1) _)
    iframe H0 H1 H2 HS0 HS1 HS2
    isplitl [H3]; · iexists _; iexact H3
    iintro ⟨H0, H1, H2, H3, HS0, HS1, HS2⟩
    iframe
  · rw [leavesR3_3_idle V c t h1, outsAtR3_next V c t h0, PhiSR3_pos V c _ _ hz]
    iintro ⟨⟨⟨⟨HS0, HS1, HS2⟩, HR⟩, Hg⟩, Ho, ⟨%d0, H0⟩, ⟨%d1, H1⟩, ⟨%d2, H2⟩, ⟨%d3, H3⟩⟩
    iapply (run3_B c (grid3.coords t) _ _ _ _ _ _ _ _ _ _ _ _ _ _ (iblkR3 V c 0 t) (iblkR3 V c 1 t) (iblkR3 V c 2 t) _ _ _ _ Set.univ (fun h => h0 ((hcond3_0 t).mp h)) (fun h => h1 ((hcond3_1 t).mp h)) _)
    iframe H0 H1 H2 H3 HS0 HS1 HS2
    iintro ⟨H0, H1, H2, H3, HS0, HS1, HS2⟩
    iframe H0 H1 H2 HS0 HS1 HS2 HR Hg Ho
    iexists _; iexact H3

theorem body_obligationR3 (c : Dev nD) : BodyObligation (datR3 (F := F) V c) (defs₀ (F := F)) Variants.none () Set.univ := fun t => by
  rw [bigSep_W3, bigSep_W3]
  exact sound_bodyR3 V c t

theorem hinR3 (c : Dev nD) : Pipeline.ΦA spec3 c ⊢ (datR3 V c).Φ 0 := by
  rw [show (datR3 V c).Φ 0 = PhiSR3 V c 0 (Nat.zero_le _) from rfl, PhiSR3_zero V c 0 _ rfl]
  try exact Idealize.SL.BI.Entails.refl _

theorem houtR3 (c : Dev nD) : (datR3 V c).Φ (Fin.last cfg3.N) ⊢ Pipeline.ΦA spec3 c := by
  rw [show (datR3 V c).Φ (Fin.last cfg3.N) = PhiSR3 V c (Fin.last cfg3.N).val (Nat.le_of_lt_succ (Fin.last cfg3.N).isLt) from rfl]
  exact PhiSR3_forget V c _ _

end

end Cert.KernelIdeal.Hand

end
-- ==== Proof.KI.FoldB.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import proofs.«418154_j20864951124059_3_alg».proof.Proof.KI.FoldA
import proofs.«418154_j20864951124059_3_alg».proof.Proof.KI.Lin4
import proofs.«418154_j20864951124059_3_alg».proof.Proof.KI.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the boundaries from the attention region on, and the regions' configurations and proof data as one family

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def U8 (c : Dev nD) : Valuation τ sig (Elt F) :=
  Pipeline.withArrays spec3 c (U7 m c) fun w => (datR3 (E7 m) c).arrAt w cfg3.N
theorem U8_arr (c : Dev nD) (w : Fin cfg3.W) :
    U8 m c (Proc.devRef .tc (Pipeline.arrRef spec3 w)) = (datR3 (E7 m) c).arrAt w cfg3.N := by
  unfold U8; exact Pipeline.withArrays_arr spec3 launch3.win.arr_inj c _ _ w
theorem U8_of_ne (c : Dev nD) (b : Ref sig .tc) (hb : ∀ w, Pipeline.arrRef spec3 w ≠ b) :
    U8 m c (Proc.devRef .tc b) = U7 m c (Proc.devRef .tc b) := by
  unfold U8; exact Pipeline.withArrays_of_ne spec3 c _ _ b hb
abbrev E8 : (c : Dev nD) → (b : Ref sig .tc) → Buf (Elt F) ((c : Thread nD τ).loc b) := fun c b => U8 m c b

abbrev U9 : Dev nD → Valuation τ sig (Elt F) := fun c => StableHlo.after hostOps4 (U8 m c)
abbrev E9 : (c : Dev nD) → (b : Ref sig .tc) → Buf (Elt F) ((c : Thread nD τ).loc b) := fun c b => U9 m c b

def U10 (c : Dev nD) : Valuation τ sig (Elt F) :=
  Pipeline.withArrays spec4 c (U9 m c) fun w => (datR4 (E9 m) c).arrAt w cfg4.N
theorem U10_arr (c : Dev nD) (w : Fin cfg4.W) :
    U10 m c (Proc.devRef .tc (Pipeline.arrRef spec4 w)) = (datR4 (E9 m) c).arrAt w cfg4.N := by
  unfold U10; exact Pipeline.withArrays_arr spec4 launch4.win.arr_inj c _ _ w
theorem U10_of_ne (c : Dev nD) (b : Ref sig .tc) (hb : ∀ w, Pipeline.arrRef spec4 w ≠ b) :
    U10 m c (Proc.devRef .tc b) = U9 m c (Proc.devRef .tc b) := by
  unfold U10; exact Pipeline.withArrays_of_ne spec4 c _ _ b hb
abbrev E10 : (c : Dev nD) → (b : Ref sig .tc) → Buf (Elt F) ((c : Thread nD τ).loc b) := fun c b => U10 m c b

abbrev U11 : Dev nD → Valuation τ sig (Elt F) := fun c => StableHlo.after hostOps5 (U10 m c)

abbrev admH : (p : Fin 5) → (pcfgs (F := F) p).Adm := fun p => (cfgs p).toPCfg_adm

def pdatsH : (p : Fin 5) → (c : Dev nD) → Dat τ (Elt F) Unit ℕ (UR sig nD τ) ℕ (Pipeline.pin (pcfgs (F := F)) admH p) c
  | ⟨0, _⟩ => fun c => datR0 (E1 m) c
  | ⟨1, _⟩ => fun c => datR1 (E3 m) c
  | ⟨2, _⟩ => fun c => datR2 (E5 m) c
  | ⟨3, _⟩ => fun c => datR3 (E7 m) c
  | ⟨4, _⟩ => fun c => datR4 (E9 m) c

abbrev 𝒱H : Variants := Variants.none
abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

end Cert.KernelIdeal.Hand

end
-- ==== Proof.KI.RegR0.lean ====
import proofs.«418154_j20864951124059_3_alg».proof.Proof.KI.FoldB
import proofs.«418154_j20864951124059_3_alg».proof.Proof.LibRegion

namespace Cert.KernelIdeal.Hand

open Cert.KernelIdeal Cert.KernelIdeal.Gen Idealize.ShloMosaic

variable {F : FTy → Type} [FloatOps F] (m : (ℓ : Loc nD τ sig) → Buf (Elt F) ℓ)

noncomputable def regR0 : Pipeline.RegionSeg (pcfgs (F := F)) admH (pdatsH m) () defs₀ 𝒱H LH lvH 0 :=
  .ofHeld launch0.toP (body_obligationR0 (E1 m)) (U1 m) (fun _ => .rfl) fun _ => .rfl

end Cert.KernelIdeal.Hand
-- ==== Proof.KI.RegR1.lean ====
import proofs.«418154_j20864951124059_3_alg».proof.Proof.KI.FoldB
import proofs.«418154_j20864951124059_3_alg».proof.Proof.LibRegion

namespace Cert.KernelIdeal.Hand

open Cert.KernelIdeal Cert.KernelIdeal.Gen Idealize.ShloMosaic

variable {F : FTy → Type} [FloatOps F] (m : (ℓ : Loc nD τ sig) → Buf (Elt F) ℓ)

noncomputable def regR1 : Pipeline.RegionSeg (pcfgs (F := F)) admH (pdatsH m) () defs₀ 𝒱H LH lvH 1 :=
  .ofHeld launch1.toP (body_obligationR1 (E3 m)) (U3 m) (fun _ => .rfl) fun _ => .rfl

end Cert.KernelIdeal.Hand
-- ==== Proof.KI.RegR2.lean ====
import proofs.«418154_j20864951124059_3_alg».proof.Proof.KI.FoldB
import proofs.«418154_j20864951124059_3_alg».proof.Proof.LibRegion

namespace Cert.KernelIdeal.Hand

open Cert.KernelIdeal Cert.KernelIdeal.Gen Idealize.ShloMosaic

variable {F : FTy → Type} [FloatOps F] (m : (ℓ : Loc nD τ sig) → Buf (Elt F) ℓ)

noncomputable def regR2 : Pipeline.RegionSeg (pcfgs (F := F)) admH (pdatsH m) () defs₀ 𝒱H LH lvH 2 :=
  .ofHeld launch2.toP (body_obligationR2 (E5 m)) (U5 m) (fun _ => .rfl) fun _ => .rfl

end Cert.KernelIdeal.Hand
-- ==== Proof.KI.RegR3.lean ====
import proofs.«418154_j20864951124059_3_alg».proof.Proof.KI.FoldB
import proofs.«418154_j20864951124059_3_alg».proof.Proof.LibRegion

namespace Cert.KernelIdeal.Hand

open Cert.KernelIdeal Cert.KernelIdeal.Gen Idealize.ShloMosaic

variable {F : FTy → Type} [FloatOps F] (m : (ℓ : Loc nD τ sig) → Buf (Elt F) ℓ)

noncomputable def regR3 : Pipeline.RegionSeg (pcfgs (F := F)) admH (pdatsH m) () defs₀ 𝒱H LH lvH 3 :=
  .ofHeld launch3.toP (body_obligationR3 (E7 m)) (U7 m) (hinR3 (E7 m)) (houtR3 (E7 m))

end Cert.KernelIdeal.Hand
-- ==== Proof.KI.RegR4.lean ====
import proofs.«418154_j20864951124059_3_alg».proof.Proof.KI.FoldB
import proofs.«418154_j20864951124059_3_alg».proof.Proof.LibRegion

namespace Cert.KernelIdeal.Hand

open Cert.KernelIdeal Cert.KernelIdeal.Gen Idealize.ShloMosaic

variable {F : FTy → Type} [FloatOps F] (m : (ℓ : Loc nD τ sig) → Buf (Elt F) ℓ)

noncomputable def regR4 : Pipeline.RegionSeg (pcfgs (F := F)) admH (pdatsH m) () defs₀ 𝒱H LH lvH 4 :=
  .ofHeld launch4.toP (body_obligationR4 (E9 m)) (U9 m) (fun _ => .rfl) fun _ => .rfl

end Cert.KernelIdeal.Hand
-- ==== Proof.KI.Run.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import proofs.«418154_j20864951124059_3_alg».proof.Proof.KI.RegR0
import proofs.«418154_j20864951124059_3_alg».proof.Proof.KI.RegR1
import proofs.«418154_j20864951124059_3_alg».proof.Proof.KI.RegR2
import proofs.«418154_j20864951124059_3_alg».proof.Proof.KI.RegR3
import proofs.«418154_j20864951124059_3_alg».proof.Proof.KI.RegR4
import proofs.«418154_j20864951124059_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the program is its eleven items run one after the other, each item's exit the next one's entry

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsH : List (Pipeline.Seg (pcfgs (F := F)) admH (pdatsH m) () defs₀ 𝒱H LH lvH) :=
  [ .host (hsegH hostOps0 hostOps0_sub hostOps0_fresh (U0 m)),
    .region (regR0 m),
    .host (hsegH hostOps1 hostOps1_sub hostOps1_fresh (U2 m)),
    .region (regR1 m),
    .host (hsegH hostOps2 hostOps2_sub hostOps2_fresh (U4 m)),
    .region (regR2 m),
    .host (hsegH hostOps3 hostOps3_sub hostOps3_fresh (U6 m)),
    .region (regR3 m),
    .host (hsegH hostOps4 hostOps4_sub hostOps4_fresh (U8 m)),
    .region (regR4 m),
    .host (hsegH hostOps5 hostOps5_sub hostOps5_fresh (U10 m)) ]

theorem main_runH (c : Dev nD) : main (F := F) c = Pipeline.Seg.run (segsH m) := (main_chain c).trans (by chain_rfl)

abbrev TnH (c : Dev nD) : sProp 𝕄 := iprop(StableHlo.held (c : Thread nD τ) (Pipeline.ucRefs τ sig) (U11 m c) ∗ ∃ r, prngReg c r)

set_option backward.isDefEq.respectTransparency.types false in

theorem run_allH : θ_run defs (onTc (τ := τ) (main (F := F))) ⟨m, fun _ => 0, ρ⟩ (fun r => ∀ c : Dev nD,
      ∀ b ∈ Pipeline.ucRefs τ sig, r.2.mem (((c : Thread nD τ)).1, b) = U11 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ RH c)) (Tₙ := TnH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by

        show iprop(StableHlo.held (c : Thread nD τ) (Pipeline.ucRefs τ sig) (U11 m c)
            ∗ iprop((∃ r, prngReg c r) ∗ ∃ W, owes (c : Thread nD τ) (0 : CellTallies nD τ sig Unit) W)) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U11 m c b)
    (hfin := fun c s' => by
      iintro ⟨⟨Hh, -⟩, HSI⟩
      unfold StableHlo.held
      imodintro
      iapply (pointsTo_read_all (Pipeline.ucRefs τ sig) (fun b => (((c : Thread nD τ)).1, b)) (U11 m c) s')
      isplitl [Hh] <;> iassumption)
    (hQ := fun s h c => h c)

end Cert.KernelIdeal.Hand

end
-- ==== Proof.KI.Frame.lean ====
import proofs.«418154_j20864951124059_3_alg».proof.Proof.Gen.KernelIdeal.Launch
import proofs.«418154_j20864951124059_3_alg».proof.Proof.Gen.KernelIdeal.Skeleton
import proofs.«418154_j20864951124059_3_alg».proof.Proof.Gen.KernelIdeal.Points
import proofs.«418154_j20864951124059_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- an array that no item writes ends as launched

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Untouched (b : Ref sig .tc) : Prop :=
  (b ∉ hostOps0_W ∧ b ∉ hostOps1_W ∧ b ∉ hostOps2_W ∧ b ∉ hostOps3_W ∧ b ∉ hostOps4_W ∧ b ∉ hostOps5_W)
    ∧ (∀ w, Pipeline.arrRef spec0 w ≠ b) ∧ (∀ w, Pipeline.arrRef spec1 w ≠ b) ∧ (∀ w, Pipeline.arrRef spec2 w ≠ b)
    ∧ (∀ w, Pipeline.arrRef spec3 w ≠ b) ∧ (∀ w, Pipeline.arrRef spec4 w ≠ b)

theorem U11_of_untouched (c : Dev nD) (b : Ref sig .tc) (hb : Untouched b) :
    U11 m c (Proc.devRef .tc b) = m ((c : Thread nD τ).loc b) := by
  obtain ⟨⟨h0, h1, h2, h3, h4, h5⟩, w0, w1, w2, w3, w4⟩ := hb
  calc U11 m c (Proc.devRef .tc b)
    _ = U10 m c (Proc.devRef .tc b) := StableHlo.after_of_writes_sub hostOps5 _ hostOps5_writes h5
    _ = U9 m c (Proc.devRef .tc b) := U10_of_ne m c b w4
    _ = U8 m c (Proc.devRef .tc b) := StableHlo.after_of_writes_sub hostOps4 _ hostOps4_writes h4
    _ = U7 m c (Proc.devRef .tc b) := U8_of_ne m c b w3
    _ = U6 m c (Proc.devRef .tc b) := StableHlo.after_of_writes_sub hostOps3 _ hostOps3_writes h3
    _ = U5 m c (Proc.devRef .tc b) := U6_of_ne m c b w2
    _ = U4 m c (Proc.devRef .tc b) := StableHlo.after_of_writes_sub hostOps2 _ hostOps2_writes h2
    _ = U3 m c (Proc.devRef .tc b) := U4_of_ne m c b w1
    _ = U2 m c (Proc.devRef .tc b) := StableHlo.after_of_writes_sub hostOps1 _ hostOps1_writes h1
    _ = U1 m c (Proc.devRef .tc b) := U2_of_ne m c b w0
    _ = U0 m c (Proc.devRef .tc b) := StableHlo.after_of_writes_sub hostOps0 _ hostOps0_writes h0
    _ = m ((c : Thread nD τ).loc b) := rfl

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem kept (s : MemSt nD τ sig (Elt F)) (c : Dev nD)
    (h : ∀ b ∈ Pipeline.ucRefs τ sig, s.mem (((c : Thread nD τ)).1, b) = U11 m c b)
    (b : Ref sig .tc) (hs : ¬ (Proc.devRef .tc b : DevRef τ sig).isScoped) (hb : Untouched b) :
    s.mem ((c.tc : Thread nD τ).loc b) = m ((c.tc : Thread nD τ).loc b) :=
  (h _ (mem_ucH b hs)).trans (U11_of_untouched m c b hb)

abbrev Kept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)

theorem kept_all (s : MemSt nD τ sig (Elt F)) (c : Dev nD)
    (h : ∀ b ∈ Pipeline.ucRefs τ sig, s.mem (((c : Thread nD τ)).1, b) = U11 m c b) : Kept m s c :=
  ⟨kept m s c h main_arg0 (by decide) (by decide),
   kept m s c h main_arg1 (by decide) (by decide),
   kept m s c h main_arg2 (by decide) (by decide),
   kept m s c h main_arg3 (by decide) (by decide),
   kept m s c h main_arg4 (by decide) (by decide),
   kept m s c h main_arg5 (by decide) (by decide),
   kept m s c h main_arg6 (by decide) (by decide),
   kept m s c h main_arg7 (by decide) (by decide),
   kept m s c h main_arg8 (by decide) (by decide),
   kept m s c h main_arg9 (by decide) (by decide),
   kept m s c h main_arg10 (by decide) (by decide)⟩

theorem frameH : θ_run defs (onTc (τ := τ) (main (F := F))) ⟨m, fun _ => 0, ρ⟩ (fun r => ∀ c : Dev nD, Kept m r.2 c) :=
  (θ_run defs _ _).mono (fun r h c => kept_all m r.2 c (h c)) (run_allH m ρ)

end Cert.KernelIdeal.Hand

end
-- ==== Proof.KI.LinSpec.lean ====
import proofs.«418154_j20864951124059_3_alg».proof.Proof.KI.LinBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open scoped BigOperators

def linG (X : S4096x2048.Idx → EReal) (W : S2048x2048.Idx → EReal) (B : S1x2048.Idx → EReal) : S4096x2048.Idx → EReal :=
  fun j => (∑ k : Fin 2048, X (ix2 (j 0) k) * W (ix2 (j 1) k)) + B (ix2 0 (j 1))

theorem lhs_lin_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_lin_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_lin_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_lin_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

theorem matmul_lin_apply (x : FVec Ideal S512x2048 .bf16) (w : FVec Ideal S2048x2048 .bf16) (p : Fin 512) (q : Fin 2048) :
    matmul dot_S512x2048_S2048x2048_S512x2048_1_1_0_0_n_n none x w (constant (F := Ideal) S512x2048 .f32 0x00000000#32) (ix2 p q)
      = ∑ k : Fin 2048, x (ix2 p k) * w (ix2 q k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact lhs_lin_0 _ _
    | ⟨1, _⟩ => exact (lhs_lin_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rhs_lin_0 _ _
    | ⟨1, _⟩ => exact (rhs_lin_1 _ _).trans hk)
  rw [el, er]

theorem bias_lin_apply (b : FVec Ideal S1x2048 .f32) (p : Fin 512) (q : Fin 2048) :
    broadcastTo S512x2048 b broadcasts_S1x2048_S512x2048 (ix2 p q) = b (ix2 0 q) :=
  broadcastTo_apply b broadcasts_S1x2048_S512x2048 (ix2 p q) (ix2 0 q) (fun a => by
    match a with
    | ⟨0, _⟩ => rfl
    | ⟨1, _⟩ => rfl)

theorem linG_of_rows (X : S4096x2048.Idx → EReal) (W : S2048x2048.Idx → EReal) (B : S1x2048.Idx → EReal)
    (x0 : Vec Ideal S512x2048 .bf16) (x1 : Vec Ideal S2048x2048 .bf16) (x2 : Vec Ideal S1x2048 .f32)
    (i : S4096x2048.Idx) (p : Fin 512) (q : Fin 2048)
    (h : (∀ k : Fin 2048, x0 (ix2 p k) = X (ix2 (i 0) k)) ∧ (∀ k : Fin 2048, x1 (ix2 q k) = W (ix2 (i 1) k)) ∧ x2 (ix2 0 q) = B (ix2 0 (i 1))) :
    (∑ k : Fin 2048, x0 (ix2 p k) * x1 (ix2 q k)) + x2 (ix2 0 q) = linG X W B i := by
  unfold linG
  rw [h.2.2]
  exact congrArg (· + B (ix2 0 (i 1))) (Finset.sum_congr rfl fun k _ => by rw [h.1 k, h.2.1 k])

theorem pay_lin_apply (x0 : Vec Ideal S512x2048 .bf16) (x1 : Vec Ideal S2048x2048 .bf16) (x2 : Vec Ideal S1x2048 .f32) (p : Fin 512) (q : Fin 2048) :
    k1_pay1 x0 x1 x2 (ix2 p q) = (∑ k : Fin 2048, x0 (ix2 p k) * x1 (ix2 q k)) + x2 (ix2 0 q) := by
  unfold k1_pay1
  simp only [shapeCast_self]
  rw [addf_apply, matmul_lin_apply, bias_lin_apply]

theorem hz : (![0, 0] : Fin 2 → Nat) = fun _ => 0 := funext fun a => by fin_cases a <;> rfl

theorem outLin_eq {e : EltTy} (pay : Vec Ideal S512x2048 .bf16 → Vec Ideal S2048x2048 .bf16 → Vec Ideal S1x2048 .f32 → Vec Ideal S512x2048 e)
    (x0 : Vec Ideal S512x2048 .bf16) (x1 : Vec Ideal S2048x2048 .bf16) (x2 : Vec Ideal S1x2048 .f32) : outLin pay x0 x1 x2 = pay x0 x1 x2 := by
  unfold outLin
  rw [View.canon_unit_zero hz]
  simp only [View.ld_unit_zero (S := S512x2048) hz, View.ld_unit_zero (S := S2048x2048) hz, View.ld_unit_zero (S := S1x2048) hz]

theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

theorem block_eq_linG (X : S4096x2048.Idx → EReal) (W : S2048x2048.Idx → EReal) (B : S1x2048.Idx → EReal) (t : Fin cfg1.N) (j : S512x2048.Idx) :
    k1_pay1 (F := Ideal) (fun i => X (((cfg1.win 0).blk t).view.emb i)) (fun i => W (((cfg1.win 1).blk t).view.emb i)) (fun i => B (((cfg1.win 2).blk t).view.emb i)) j
      = linG X W B (((cfg1.win 3).blk t).view.emb j) := by
  obtain ⟨e0, e1, e2, e3, e4, e5, e6, e7⟩ := idx_facts t
  obtain ⟨p, q, rfl⟩ : ∃ (p : Fin 512) (q : Fin 2048), j = ix2 p q := ⟨j 0, j 1, eq_ix2 j⟩
  rw [pay_lin_apply]
  refine linG_of_rows X W B (fun i => X (((cfg1.win 0).blk t).view.emb i)) (fun i => W (((cfg1.win 1).blk t).view.emb i)) (fun i => B (((cfg1.win 2).blk t).view.emb i))
    (((cfg1.win 3).blk t).view.emb (ix2 p q)) p q ⟨fun k => congrArg X (funext fun a => Fin.ext ?_), fun k => congrArg W (funext fun a => Fin.ext ?_), congrArg B (funext fun a => Fin.ext ?_)⟩
  · match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  · match a with
    | ⟨0, _⟩ => show win1_1.index t (0 : Fin 2) * 2048 + 1 * q.val = win1_3.index t (1 : Fin 2) * 2048 + 1 * q.val; omega
    | ⟨1, _⟩ => show win1_1.index t (1 : Fin 2) * 2048 + 1 * k.val = k.val; omega
  · match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega

theorem tiles (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have ht : (i 0).val / 512 < grid1.N := by rw [N_1]; omega
  obtain ⟨-, -, -, -, -, -, e6, e7⟩ := idx_facts ⟨(i 0).val / 512, ht⟩
  have e6' : win1_3.index ⟨(i 0).val / 512, ht⟩ (0 : Fin 2) = (i 0).val / 512 := e6
  refine ⟨⟨(i 0).val / 512, ht⟩, flush1_3 _, (?_ : i ∈ ((View.whole main_v9).slice (win1_3.rect ⟨(i 0).val / 512, ht⟩)).set)⟩
  rw [View.set_slice_whole, Rect.mem_set_unit]
  intro a
  match a with
  | ⟨0, _⟩ => show win1_3.index _ (0 : Fin 2) * 512 ≤ (i 0).val ∧ (i 0).val < win1_3.index _ (0 : Fin 2) * 512 + 512; omega
  | ⟨1, _⟩ => show win1_3.index _ (1 : Fin 2) * 2048 ≤ (i 1).val ∧ (i 1).val < win1_3.index _ (1 : Fin 2) * 2048 + 2048; omega

end Cert.KernelIdeal.HandV

end
-- ==== Proof.KI.LinVal0.lean ====
import proofs.«418154_j20864951124059_3_alg».proof.Proof.KI.Lin0
import proofs.«418154_j20864951124059_3_alg».proof.Proof.KI.LinSpec

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

section
variable (V : (c : Dev nD) → (b : Ref sig .tc) → Buf (Elt Ideal) ((c : Thread nD τ).loc b))

theorem flushedR0_eq (c : Dev nD) (t : Fin cfg0.N) :
    (datR0 V c).flushed 3 t = ((cfg0.win 3).blk t).view.read (Elt Ideal)
      (linG (V c (Pipeline.arrRef spec0 0)) (V c (Pipeline.arrRef spec0 1)) (V c (Pipeline.arrRef spec0 2))) := by
  show (cfg0.win 3).cut (grid0.coords t) ((datR0 V c).after 3 t) = _
  rw [afterR0_3]; unfold outR0; rw [outLin_eq]
  funext j
  exact block_eq_linG (V c (Pipeline.arrRef spec0 0)) (V c (Pipeline.arrRef spec0 1)) (V c (Pipeline.arrRef spec0 2)) t j

theorem finalR0 (c : Dev nD) :
    (datR0 V c).arrAt 3 cfg0.N = linG (V c (Pipeline.arrRef spec0 0)) (V c (Pipeline.arrRef spec0 1)) (V c (Pipeline.arrRef spec0 2)) :=
  (datR0 V c).arrAt_eq_of_cover 3 _ (fun t _ => flushedR0_eq V c t) tiles

end

end Cert.KernelIdeal.HandV

end
-- ==== Proof.KI.LinVal1.lean ====
import proofs.«418154_j20864951124059_3_alg».proof.Proof.KI.Lin1
import proofs.«418154_j20864951124059_3_alg».proof.Proof.KI.LinSpec

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

section
variable (V : (c : Dev nD) → (b : Ref sig .tc) → Buf (Elt Ideal) ((c : Thread nD τ).loc b))

theorem flushedR1_eq (c : Dev nD) (t : Fin cfg1.N) :
    (datR1 V c).flushed 3 t = ((cfg1.win 3).blk t).view.read (Elt Ideal)
      (linG (V c (Pipeline.arrRef spec1 0)) (V c (Pipeline.arrRef spec1 1)) (V c (Pipeline.arrRef spec1 2))) := by
  show (cfg1.win 3).cut (grid1.coords t) ((datR1 V c).after 3 t) = _
  rw [afterR1_3]; unfold outR1; rw [outLin_eq]
  funext j
  exact block_eq_linG (V c (Pipeline.arrRef spec1 0)) (V c (Pipeline.arrRef spec1 1)) (V c (Pipeline.arrRef spec1 2)) t j

theorem finalR1 (c : Dev nD) :
    (datR1 V c).arrAt 3 cfg1.N = linG (V c (Pipeline.arrRef spec1 0)) (V c (Pipeline.arrRef spec1 1)) (V c (Pipeline.arrRef spec1 2)) :=
  (datR1 V c).arrAt_eq_of_cover 3 _ (fun t _ => flushedR1_eq V c t) tiles

end

end Cert.KernelIdeal.HandV

end
-- ==== Proof.KI.LinVal2.lean ====
import proofs.«418154_j20864951124059_3_alg».proof.Proof.KI.Lin2
import proofs.«418154_j20864951124059_3_alg».proof.Proof.KI.LinSpec

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

section
variable (V : (c : Dev nD) → (b : Ref sig .tc) → Buf (Elt Ideal) ((c : Thread nD τ).loc b))

theorem flushedR2_eq (c : Dev nD) (t : Fin cfg2.N) :
    (datR2 V c).flushed 3 t = ((cfg2.win 3).blk t).view.read (Elt Ideal)
      (linG (V c (Pipeline.arrRef spec2 0)) (V c (Pipeline.arrRef spec2 1)) (V c (Pipeline.arrRef spec2 2))) := by
  show (cfg2.win 3).cut (grid2.coords t) ((datR2 V c).after 3 t) = _
  rw [afterR2_3]; unfold outR2; rw [outLin_eq]
  funext j
  exact block_eq_linG (V c (Pipeline.arrRef spec2 0)) (V c (Pipeline.arrRef spec2 1)) (V c (Pipeline.arrRef spec2 2)) t j

theorem finalR2 (c : Dev nD) :
    (datR2 V c).arrAt 3 cfg2.N = linG (V c (Pipeline.arrRef spec2 0)) (V c (Pipeline.arrRef spec2 1)) (V c (Pipeline.arrRef spec2 2)) :=
  (datR2 V c).arrAt_eq_of_cover 3 _ (fun t _ => flushedR2_eq V c t) tiles

end

end Cert.KernelIdeal.HandV

end
-- ==== Proof.Spec.lean ====
import Idealize.ShloMosaic.PureOps.Ideal
import Idealize.ShloMosaic.Lib.ValueIdx

-- the layer as functions of the eleven argument arrays: the projections, the two caches (past rows, then the new rows),
-- the scaled scores, the row-softmax weights, the weighted sum of values and the output projection

noncomputable section

namespace Cert.Spec

open Idealize.ShloMosaic Idealize.ShloMosaic.ValueIdx

abbrev Sx : Shape := ⟨3, ![2, 2048, 2048]⟩
abbrev Sp : Shape := ⟨4, ![2, 16, 2048, 128]⟩
abbrev Sf : Shape := ⟨4, ![2, 16, 4096, 128]⟩
abbrev Sw : Shape := ⟨2, ![2048, 2048]⟩
abbrev Sb : Shape := ⟨1, ![2048]⟩

def scale : EReal := Ideal.ofBits .f32 0x3DB504F3#32

def hd (h : Fin 16) (d : Fin 128) : Fin 2048 := ⟨h.val * 128 + d.val, by omega⟩

def proj (x : Sx.Idx → EReal) (W : Sw.Idx → EReal) (b : Sb.Idx → EReal) (bb : Fin 2) (s : Fin 2048) (e : Fin 2048) : EReal :=
  (∑ k : Fin 2048, x (ix3 bb s k) * W (ix2 e k)) + b (ix1 e)

def cache (past : Sp.Idx → EReal) (x : Sx.Idx → EReal) (W : Sw.Idx → EReal) (b : Sb.Idx → EReal)
    (bb : Fin 2) (h : Fin 16) (t : Fin 4096) (d : Fin 128) : EReal :=
  if ht : t.val < 2048 then past (ix4 bb h ⟨t.val, ht⟩ d) else proj x W b bb ⟨t.val - 2048, by omega⟩ (hd h d)

def cacheArr (past : Sp.Idx → EReal) (x : Sx.Idx → EReal) (W : Sw.Idx → EReal) (b : Sb.Idx → EReal) : Sf.Idx → EReal :=
  fun j => cache past x W b (j 0) (j 1) (j 2) (j 3)

def score (qv : Fin 128 → EReal) (kv : Fin 4096 → Fin 128 → EReal) (t : Fin 4096) : EReal :=
  (∑ d : Fin 128, qv d * kv t d) * scale

def rowMax (s : Fin 4096 → EReal) : EReal := (Finset.univ : Finset (Fin 4096)).fold max ⊥ s

def weight (s : Fin 4096 → EReal) (t : Fin 4096) : EReal :=
  Ideal.div (Ideal.exp (s t - rowMax s)) (∑ t' : Fin 4096, Ideal.exp (s t' - rowMax s))

def attend (s : Fin 4096 → EReal) (v : Fin 4096 → EReal) : EReal := ∑ t : Fin 4096, weight s t * v t

section Layer

variable (x : Sx.Idx → EReal) (pK pV : Sp.Idx → EReal) (Wq : Sw.Idx → EReal) (bq : Sb.Idx → EReal)
  (Wk : Sw.Idx → EReal) (bk : Sb.Idx → EReal) (Wv : Sw.Idx → EReal) (bv : Sb.Idx → EReal)

def scores (bb : Fin 2) (h : Fin 16) (i : Fin 2048) : Fin 4096 → EReal :=
  score (fun d => proj x Wq bq bb i (hd h d)) (fun t d => cache pK x Wk bk bb h t d)

def attn (bb : Fin 2) (h : Fin 16) (i : Fin 2048) (d : Fin 128) : EReal :=
  attend (scores x pK Wq bq Wk bk bb h i) (fun t => cache pV x Wv bv bb h t d)

def attnFlat (bb : Fin 2) (i : Fin 2048) (j : Fin 2048) : EReal :=
  attn x pK pV Wq bq Wk bk Wv bv bb ⟨j.val / 128, by omega⟩ i ⟨j.val % 128, by omega⟩

variable (Wo : Sw.Idx → EReal) (bo : Sb.Idx → EReal)

def out (bb : Fin 2) (i : Fin 2048) (e : Fin 2048) : EReal :=
  (∑ j : Fin 2048, attnFlat x pK pV Wq bq Wk bk Wv bv bb i j * Wo (ix2 e j)) + bo (ix1 e)

def outArr : Sx.Idx → EReal :=
  fun j => out x pK pV Wq bq Wk bk Wv bv Wo bo (j 0) (j 1) (j 2)

end Layer

end Cert.Spec

end
-- ==== Proof.KI.HostVal.lean ====
import proofs.«418154_j20864951124059_3_alg».proof.Proof.KI.FoldA
import proofs.«418154_j20864951124059_3_alg».proof.Proof.Gen.KernelIdeal.Regions
import proofs.«418154_j20864951124059_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

-- the arrays the host stretches build, read at an index: reshapes of the arguments, and a cache as the past rows followed by the new rows

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

section Persist
variable {F : FTy → Type} [FloatOps F] (m : (ℓ : Loc nD τ sig) → Buf (Elt F) ℓ) (c : Dev nD)

theorem U1_of (r : Ref sig .tc) (h : r ∉ hostOps0_W) : U1 m c (Proc.devRef .tc r) = U0 m c (Proc.devRef .tc r) :=
  StableHlo.after_of_writes_sub hostOps0 _ hostOps0_writes h
theorem U3_of (r : Ref sig .tc) (h : r ∉ hostOps1_W) : U3 m c (Proc.devRef .tc r) = U2 m c (Proc.devRef .tc r) :=
  StableHlo.after_of_writes_sub hostOps1 _ hostOps1_writes h
theorem U5_of (r : Ref sig .tc) (h : r ∉ hostOps2_W) : U5 m c (Proc.devRef .tc r) = U4 m c (Proc.devRef .tc r) :=
  StableHlo.after_of_writes_sub hostOps2 _ hostOps2_writes h
theorem U7_of (r : Ref sig .tc) (h : r ∉ hostOps3_W) : U7 m c (Proc.devRef .tc r) = U6 m c (Proc.devRef .tc r) :=
  StableHlo.after_of_writes_sub hostOps3 _ hostOps3_writes h

theorem U2_in (w : Fin cfg0.W) (hin : (cfg0.win w).isOut = false) :
    U2 m c (Proc.devRef .tc (Pipeline.arrRef spec0 w)) = U1 m c (Proc.devRef .tc (Pipeline.arrRef spec0 w)) := by
  rw [U2_arr, Pipeline.Dat.arrAt_in _ w hin, A_eqR0]
theorem U4_in (w : Fin cfg1.W) (hin : (cfg1.win w).isOut = false) :
    U4 m c (Proc.devRef .tc (Pipeline.arrRef spec1 w)) = U3 m c (Proc.devRef .tc (Pipeline.arrRef spec1 w)) := by
  rw [U4_arr, Pipeline.Dat.arrAt_in _ w hin, A_eqR1]
theorem U6_in (w : Fin cfg2.W) (hin : (cfg2.win w).isOut = false) :
    U6 m c (Proc.devRef .tc (Pipeline.arrRef spec2 w)) = U5 m c (Proc.devRef .tc (Pipeline.arrRef spec2 w)) := by
  rw [U6_arr, Pipeline.Dat.arrAt_in _ w hin, A_eqR2]

theorem E3_v1 : E3 m c main_v1 = E1 m c main_v1 :=
  (U3_of m c main_v1 (by decide)).trans (U2_in m c 0 rfl)
theorem E5_v1 : E5 m c main_v1 = E1 m c main_v1 :=
  ((U5_of m c main_v1 (by decide)).trans (U4_in m c 0 rfl)).trans (E3_v1 m c)

theorem E3_v3 : E3 m c main_v3 = E1 m c main_v3 :=
  (U3_of m c main_v3 (by decide)).trans (U2_of_ne m c main_v3 (by decide))
theorem E5_v4 : E5 m c main_v4 = E1 m c main_v4 :=
  (((U5_of m c main_v4 (by decide)).trans (U4_of_ne m c main_v4 (by decide))).trans (U3_of m c main_v4 (by decide))).trans
    (U2_of_ne m c main_v4 (by decide))

theorem E7_v7 : E7 m c main_v7 = E2 m c main_v7 :=
  ((((U7_of m c main_v7 (by decide)).trans (U6_of_ne m c main_v7 (by decide))).trans (U5_of m c main_v7 (by decide))).trans
    (U4_of_ne m c main_v7 (by decide))).trans (U3_of m c main_v7 (by decide))

theorem U2_arg (r : Ref sig .tc) (h0 : r ∉ hostOps0_W) (h1 : ∀ w, Pipeline.arrRef spec0 w ≠ r) :
    U2 m c (Proc.devRef .tc r) = U0 m c (Proc.devRef .tc r) :=
  (U2_of_ne m c r h1).trans (U1_of m c r h0)
theorem U4_arg (r : Ref sig .tc) (h0 : r ∉ hostOps0_W) (h1 : ∀ w, Pipeline.arrRef spec0 w ≠ r) (h2 : r ∉ hostOps1_W)
    (h3 : ∀ w, Pipeline.arrRef spec1 w ≠ r) : U4 m c (Proc.devRef .tc r) = U0 m c (Proc.devRef .tc r) :=
  ((U4_of_ne m c r h3).trans (U3_of m c r h2)).trans (U2_arg m c r h0 h1)
theorem U6_arg (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) (h5 : ∀ w, Pipeline.arrRef spec2 w ≠ r) :
    U6 m c (Proc.devRef .tc r) = U0 m c (Proc.devRef .tc r) :=
  ((U6_of_ne m c r h5).trans (U5_of m c r h4)).trans (U4_arg m c r h0 h1 h2 h3)

end Persist

-- the eleven arguments as launched, as arrays of extended reals
abbrev arg0 (m : (ℓ : Loc nD τ sig) → Buf (Elt Ideal) ℓ) (c : Dev nD) : S2x2048x2048.Idx → EReal := m ((c : Thread nD τ).loc main_arg0)
abbrev arg1 (m : (ℓ : Loc nD τ sig) → Buf (Elt Ideal) ℓ) (c : Dev nD) : S2x16x2048x128.Idx → EReal := m ((c : Thread nD τ).loc main_arg1)
abbrev arg2 (m : (ℓ : Loc nD τ sig) → Buf (Elt Ideal) ℓ) (c : Dev nD) : S2x16x2048x128.Idx → EReal := m ((c : Thread nD τ).loc main_arg2)
abbrev arg3 (m : (ℓ : Loc nD τ sig) → Buf (Elt Ideal) ℓ) (c : Dev nD) : S2048x2048.Idx → EReal := m ((c : Thread nD τ).loc main_arg3)
abbrev arg4 (m : (ℓ : Loc nD τ sig) → Buf (Elt Ideal) ℓ) (c : Dev nD) : S2048.Idx → EReal := m ((c : Thread nD τ).loc main_arg4)
abbrev arg5 (m : (ℓ : Loc nD τ sig) → Buf (Elt Ideal) ℓ) (c : Dev nD) : S2048x2048.Idx → EReal := m ((c : Thread nD τ).loc main_arg5)
abbrev arg6 (m : (ℓ : Loc nD τ sig) → Buf (Elt Ideal) ℓ) (c : Dev nD) : S2048.Idx → EReal := m ((c : Thread nD τ).loc main_arg6)
abbrev arg7 (m : (ℓ : Loc nD τ sig) → Buf (Elt Ideal) ℓ) (c : Dev nD) : S2048x2048.Idx → EReal := m ((c : Thread nD τ).loc main_arg7)
abbrev arg8 (m : (ℓ : Loc nD τ sig) → Buf (Elt Ideal) ℓ) (c : Dev nD) : S2048.Idx → EReal := m ((c : Thread nD τ).loc main_arg8)
abbrev arg9 (m : (ℓ : Loc nD τ sig) → Buf (Elt Ideal) ℓ) (c : Dev nD) : S2048x2048.Idx → EReal := m ((c : Thread nD τ).loc main_arg9)
abbrev arg10 (m : (ℓ : Loc nD τ sig) → Buf (Elt Ideal) ℓ) (c : Dev nD) : S2048.Idx → EReal := m ((c : Thread nD τ).loc main_arg10)

section Values
variable (m : (ℓ : Loc nD τ sig) → Buf (Elt Ideal) ℓ) (c : Dev nD)

theorem E1_v1_at (r : Fin 4096) (k : Fin 2048) :
    (E1 m c main_v1 : S4096x2048.Idx → EReal) (ix2 r k)
      = (arg0 m c) (ix3 (⟨r.val / 2048, by omega⟩ : Fin 2) (⟨r.val % 2048, by omega⟩ : Fin 2048) k) := by
  have e : (E1 m c main_v1 : S4096x2048.Idx → EReal)
      = shapeCast S4096x2048 (arg0 m c) shapeCasts_S2x2048x2048_S4096x2048 := by
    show StableHlo.after hostOps0 (U0 m c) (Proc.devRef .tc main_v1) = _
    after_results
    rfl
  rw [e]
  refine shapeCast_apply (s := S2x2048x2048) (t := S4096x2048) _ _ _ _ ?_
  rw [Shape.rowMajor_val_three, Shape.rowMajor_val_two]
  show (r.val / 2048 * 2048 + r.val % 2048) * 2048 + k.val = r.val * 2048 + k.val
  omega

theorem E1_v2_eq : (E1 m c main_v2 : S2048x2048.Idx → EReal) = (arg3 m c) := by
  show StableHlo.after hostOps0 (U0 m c) (Proc.devRef .tc main_v2) = _
  after_results
  rfl
theorem E1_v3_eq : (E1 m c main_v3 : S2048x2048.Idx → EReal) = (arg5 m c) := by
  show StableHlo.after hostOps0 (U0 m c) (Proc.devRef .tc main_v3) = _
  after_results
  rfl
theorem E1_v4_eq : (E1 m c main_v4 : S2048x2048.Idx → EReal) = (arg7 m c) := by
  show StableHlo.after hostOps0 (U0 m c) (Proc.devRef .tc main_v4) = _
  after_results
  rfl
theorem E1_v5_eq : (E1 m c main_v5 : S2048x2048.Idx → EReal) = (arg9 m c) := by
  show StableHlo.after hostOps0 (U0 m c) (Proc.devRef .tc main_v5) = _
  after_results
  rfl

theorem E1_v6_at (u : Fin 1) (e : Fin 2048) :
    (E1 m c main_v6 : S1x2048.Idx → EReal) (ix2 u e) = (arg4 m c) (ix1 e) := by
  have e' : (E1 m c main_v6 : S1x2048.Idx → EReal)
      = shapeCast S1x2048 (arg4 m c) shapeCasts_S2048_S1x2048 := by
    show StableHlo.after hostOps0 (U0 m c) (Proc.devRef .tc main_v6) = _
    after_results
    rfl
  rw [e']
  exact shapeCast_a_1a_apply _ _ u e

theorem E3_v8_at (u : Fin 1) (e : Fin 2048) :
    (E3 m c main_v8 : S1x2048.Idx → EReal) (ix2 u e) = (arg6 m c) (ix1 e) := by
  have e' : (E3 m c main_v8 : S1x2048.Idx → EReal)
      = shapeCast S1x2048 (arg6 m c) shapeCasts_S2048_S1x2048 := by
    show StableHlo.after hostOps1 (U2 m c) (Proc.devRef .tc main_v8) = _
    after_results
    rw [U2_arg m c main_arg6 (by decide) (by decide)]
    rfl
  rw [e']
  exact shapeCast_a_1a_apply _ _ u e

theorem E5_v10_at (u : Fin 1) (e : Fin 2048) :
    (E5 m c main_v10 : S1x2048.Idx → EReal) (ix2 u e) = (arg8 m c) (ix1 e) := by
  have e' : (E5 m c main_v10 : S1x2048.Idx → EReal)
      = shapeCast S1x2048 (arg8 m c) shapeCasts_S2048_S1x2048 := by
    show StableHlo.after hostOps2 (U4 m c) (Proc.devRef .tc main_v10) = _
    after_results
    rw [U4_arg m c main_arg8 (by decide) (by decide) (by decide) (by decide)]
    rfl
  rw [e']
  exact shapeCast_a_1a_apply _ _ u e

theorem cache_at (past : S2x16x2048x128.Idx → EReal) (y : S4096x2048.Idx → EReal)
    (b : Fin 2) (h : Fin 16) (t : Fin 4096) (d : Fin 128) :
    concatenate S2x16x4096x128 2 [⟨S2x16x2048x128, past⟩,
        ⟨S2x16x2048x128, transpose S2x16x2048x128 [0, 2, 1, 3] (shapeCast S2x2048x16x128 y shapeCasts_S4096x2048_S2x2048x16x128)
          transposes_S2x2048x16x128_S2x16x2048x128_0_2_1_3⟩]
        concatenates_S2x16x2048x128_S2x16x2048x128_S2x16x4096x128_d2 (ix4 b h t d)
      = if ht : t.val < 2048 then past (ix4 b h (⟨t.val, ht⟩ : Fin 2048) d)
        else y (ix2 (⟨b.val * 2048 + (t.val - 2048), by omega⟩ : Fin 4096) (Cert.Spec.hd h d)) := by
  by_cases ht : t.val < 2048
  · rw [dif_pos ht]
    refine concatenate_pair_apply_left (t := S2x16x4096x128) (s₁ := S2x16x2048x128) (s₂ := S2x16x2048x128) 2 past _ _ _ rfl
      (ix4 (n2 := 2048) b h ⟨t.val, ht⟩ d) ?_
    intro a; match a with | ⟨0, _⟩ => rfl | ⟨1, _⟩ => rfl | ⟨2, _⟩ => rfl | ⟨3, _⟩ => rfl
  · rw [dif_neg ht]
    have hlt : t.val < 4096 := t.isLt
    have h0 := b.isLt; have h1 := h.isLt; have h3 := d.isLt
    have e1 : transpose S2x16x2048x128 [0, 2, 1, 3] (shapeCast S2x2048x16x128 y shapeCasts_S4096x2048_S2x2048x16x128)
          transposes_S2x2048x16x128_S2x16x2048x128_0_2_1_3 (ix4 (n2 := 2048) b h ⟨t.val - 2048, by omega⟩ d)
        = y (ix2 (⟨b.val * 2048 + (t.val - 2048), by omega⟩ : Fin 4096) (Cert.Spec.hd h d)) := by
      rw [transpose_apply _ _ _ _ (ix4 (n1 := 2048) (n2 := 16) b ⟨t.val - 2048, by omega⟩ h d)
        (by intro a; match a with | ⟨0, _⟩ => rfl | ⟨1, _⟩ => rfl | ⟨2, _⟩ => rfl | ⟨3, _⟩ => rfl)]
      refine shapeCast_apply (s := S4096x2048) (t := S2x2048x16x128) _ _ _ _ ?_
      rw [Shape.rowMajor_val_two, Shape.rowMajor_val_four]
      show (b.val * 2048 + (t.val - 2048)) * 2048 + (h.val * 128 + d.val) = ((b.val * 2048 + (t.val - 2048)) * 16 + h.val) * 128 + d.val
      omega
    rw [← e1]
    refine concatenate_pair_apply_right (t := S2x16x4096x128) (s₁ := S2x16x2048x128) (s₂ := S2x16x2048x128) 2 past _ _ _ rfl rfl
      (ix4 (n2 := 2048) b h ⟨t.val - 2048, by omega⟩ d) ?_ ?_
    · intro a ha
      match a with
      | ⟨0, _⟩ => rfl
      | ⟨1, _⟩ => rfl
      | ⟨2, _⟩ => exact absurd rfl ha
      | ⟨3, _⟩ => rfl
    · show (t.val - 2048) + 2048 = t.val
      omega

theorem E7_v16_at (b : Fin 2) (h : Fin 16) (t : Fin 4096) (d : Fin 128) :
    (E7 m c main_v16 : S2x16x4096x128.Idx → EReal) (ix4 b h t d)
      = if ht : t.val < 2048 then (arg1 m c) (ix4 b h (⟨t.val, ht⟩ : Fin 2048) d)
        else (E4 m c main_v9 : S4096x2048.Idx → EReal) (ix2 (⟨b.val * 2048 + (t.val - 2048), by omega⟩ : Fin 4096) (Cert.Spec.hd h d)) := by
  have e : (E7 m c main_v16 : S2x16x4096x128.Idx → EReal)
      = concatenate S2x16x4096x128 2 [⟨S2x16x2048x128, (arg1 m c)⟩,
          ⟨S2x16x2048x128, transpose S2x16x2048x128 [0, 2, 1, 3] (shapeCast S2x2048x16x128 (E4 m c main_v9 : S4096x2048.Idx → EReal) shapeCasts_S4096x2048_S2x2048x16x128)
            transposes_S2x2048x16x128_S2x16x2048x128_0_2_1_3⟩]
          concatenates_S2x16x2048x128_S2x16x2048x128_S2x16x4096x128_d2 := by
    show StableHlo.after hostOps3 (U6 m c) (Proc.devRef .tc main_v16) = _
    after_results
    rw [U6_arg m c main_arg1 (by decide) (by decide) (by decide) (by decide) (by decide) (by decide),
      U6_of_ne m c main_v9 (by decide), U5_of m c main_v9 (by decide)]
    rfl
  rw [e]
  exact cache_at _ _ b h t d

theorem E7_v17_at (b : Fin 2) (h : Fin 16) (t : Fin 4096) (d : Fin 128) :
    (E7 m c main_v17 : S2x16x4096x128.Idx → EReal) (ix4 b h t d)
      = if ht : t.val < 2048 then (arg2 m c) (ix4 b h (⟨t.val, ht⟩ : Fin 2048) d)
        else (E6 m c main_v11 : S4096x2048.Idx → EReal) (ix2 (⟨b.val * 2048 + (t.val - 2048), by omega⟩ : Fin 4096) (Cert.Spec.hd h d)) := by
  have e : (E7 m c main_v17 : S2x16x4096x128.Idx → EReal)
      = concatenate S2x16x4096x128 2 [⟨S2x16x2048x128, (arg2 m c)⟩,
          ⟨S2x16x2048x128, transpose S2x16x2048x128 [0, 2, 1, 3] (shapeCast S2x2048x16x128 (E6 m c main_v11 : S4096x2048.Idx → EReal) shapeCasts_S4096x2048_S2x2048x16x128)
            transposes_S2x2048x16x128_S2x16x2048x128_0_2_1_3⟩]
          concatenates_S2x16x2048x128_S2x16x2048x128_S2x16x4096x128_d2 := by
    show StableHlo.after hostOps3 (U6 m c) (Proc.devRef .tc main_v17) = _
    after_results
    rw [U6_arg m c main_arg2 (by decide) (by decide) (by decide) (by decide) (by decide) (by decide)]
    rfl
  rw [e]
  exact cache_at _ _ b h t d

end Values

end Cert.KernelIdeal.HandV

end
-- ==== Proof.KI.ChainQKV.lean ====
import proofs.«418154_j20864951124059_3_alg».proof.Proof.KI.FoldA
import proofs.«418154_j20864951124059_3_alg».proof.Proof.KI.LinVal0
import proofs.«418154_j20864951124059_3_alg».proof.Proof.KI.LinVal1
import proofs.«418154_j20864951124059_3_alg».proof.Proof.KI.LinVal2
import proofs.«418154_j20864951124059_3_alg».proof.Proof.KI.HostVal
import proofs.«418154_j20864951124059_3_alg».proof.Proof.Spec

-- the three projections and the two caches, followed along the boundaries

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open scoped BigOperators

theorem linG_ix2 (X : S4096x2048.Idx → EReal) (W : S2048x2048.Idx → EReal) (B : S1x2048.Idx → EReal) (r : Fin 4096) (e : Fin 2048) :
    linG X W B (ix2 r e) = (∑ k : Fin 2048, X (ix2 r k) * W (ix2 e k)) + B (ix2 0 e) := rfl

section
variable (m : (ℓ : Loc nD τ sig) → Buf (Elt Ideal) ℓ) (c : Dev nD)

theorem qrows_at (r : Fin 4096) (e : Fin 2048) :
    (E2 m c main_v7 : S4096x2048.Idx → EReal) (ix2 r e)
      = Cert.Spec.proj (arg0 m c) (arg3 m c) (arg4 m c)
          (⟨r.val / 2048, by omega⟩ : Fin 2) (⟨r.val % 2048, by omega⟩ : Fin 2048) e := by
  have hA : (E2 m c main_v7 : S4096x2048.Idx → EReal)
      = linG (E1 m c main_v1 : S4096x2048.Idx → EReal) (E1 m c main_v2 : S2048x2048.Idx → EReal) (E1 m c main_v6 : S1x2048.Idx → EReal) :=
    (U2_arr m c 3).trans (finalR0 (E1 m) c)
  rw [hA, linG_ix2]
  unfold Cert.Spec.proj
  rw [E1_v2_eq, E1_v6_at]
  exact congrArg (· + _) (Finset.sum_congr rfl fun k _ => by rw [E1_v1_at])

theorem krows_at (r : Fin 4096) (e : Fin 2048) :
    (E4 m c main_v9 : S4096x2048.Idx → EReal) (ix2 r e)
      = Cert.Spec.proj (arg0 m c) (arg5 m c) (arg6 m c)
          (⟨r.val / 2048, by omega⟩ : Fin 2) (⟨r.val % 2048, by omega⟩ : Fin 2048) e := by
  have hA : (E4 m c main_v9 : S4096x2048.Idx → EReal)
      = linG (E3 m c main_v1 : S4096x2048.Idx → EReal) (E3 m c main_v3 : S2048x2048.Idx → EReal) (E3 m c main_v8 : S1x2048.Idx → EReal) :=
    (U4_arr m c 3).trans (finalR1 (E3 m) c)
  rw [hA, linG_ix2]
  unfold Cert.Spec.proj
  rw [E3_v1, E3_v3, E1_v3_eq, E3_v8_at]
  exact congrArg (· + _) (Finset.sum_congr rfl fun k _ => by rw [E1_v1_at])

theorem vrows_at (r : Fin 4096) (e : Fin 2048) :
    (E6 m c main_v11 : S4096x2048.Idx → EReal) (ix2 r e)
      = Cert.Spec.proj (arg0 m c) (arg7 m c) (arg8 m c)
          (⟨r.val / 2048, by omega⟩ : Fin 2) (⟨r.val % 2048, by omega⟩ : Fin 2048) e := by
  have hA : (E6 m c main_v11 : S4096x2048.Idx → EReal)
      = linG (E5 m c main_v1 : S4096x2048.Idx → EReal) (E5 m c main_v4 : S2048x2048.Idx → EReal) (E5 m c main_v10 : S1x2048.Idx → EReal) :=
    (U6_arr m c 3).trans (finalR2 (E5 m) c)
  rw [hA, linG_ix2]
  unfold Cert.Spec.proj
  rw [E5_v1, E5_v4, E1_v4_eq, E5_v10_at]
  exact congrArg (· + _) (Finset.sum_congr rfl fun k _ => by rw [E1_v1_at])

theorem kcache_at (b : Fin 2) (h : Fin 16) (t : Fin 4096) (d : Fin 128) :
    (E7 m c main_v16 : S2x16x4096x128.Idx → EReal) (ix4 b h t d)
      = Cert.Spec.cache (arg1 m c) (arg0 m c) (arg5 m c) (arg6 m c) b h t d := by
  rw [E7_v16_at]
  unfold Cert.Spec.cache
  by_cases ht : t.val < 2048
  · rw [dif_pos ht, dif_pos ht]
  · rw [dif_neg ht, dif_neg ht, krows_at]
    have ht' : t.val < 4096 := t.isLt
    have hb : (⟨(b.val * 2048 + (t.val - 2048)) / 2048, by omega⟩ : Fin 2) = b := Fin.ext (by show (b.val * 2048 + (t.val - 2048)) / 2048 = b.val; omega)
    have hs : (⟨(b.val * 2048 + (t.val - 2048)) % 2048, by omega⟩ : Fin 2048) = ⟨t.val - 2048, by omega⟩ := Fin.ext (by show (b.val * 2048 + (t.val - 2048)) % 2048 = t.val - 2048; omega)
    rw [hb, hs]

theorem vcache_at (b : Fin 2) (h : Fin 16) (t : Fin 4096) (d : Fin 128) :
    (E7 m c main_v17 : S2x16x4096x128.Idx → EReal) (ix4 b h t d)
      = Cert.Spec.cache (arg2 m c) (arg0 m c) (arg7 m c) (arg8 m c) b h t d := by
  rw [E7_v17_at]
  unfold Cert.Spec.cache
  by_cases ht : t.val < 2048
  · rw [dif_pos ht, dif_pos ht]
  · rw [dif_neg ht, dif_neg ht, vrows_at]
    have ht' : t.val < 4096 := t.isLt
    have hb : (⟨(b.val * 2048 + (t.val - 2048)) / 2048, by omega⟩ : Fin 2) = b := Fin.ext (by show (b.val * 2048 + (t.val - 2048)) / 2048 = b.val; omega)
    have hs : (⟨(b.val * 2048 + (t.val - 2048)) % 2048, by omega⟩ : Fin 2048) = ⟨t.val - 2048, by omega⟩ := Fin.ext (by show (b.val * 2048 + (t.val - 2048)) % 2048 = t.val - 2048; omega)
    rw [hb, hs]

end

end Cert.KernelIdeal.HandV

end
-- ==== Proof.KI.LinVal4.lean ====
import proofs.«418154_j20864951124059_3_alg».proof.Proof.KI.Lin4
import proofs.«418154_j20864951124059_3_alg».proof.Proof.KI.LinSpec

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

section
variable (V : (c : Dev nD) → (b : Ref sig .tc) → Buf (Elt Ideal) ((c : Thread nD τ).loc b))

theorem flushedR4_eq (c : Dev nD) (t : Fin cfg4.N) :
    (datR4 V c).flushed 3 t = ((cfg4.win 3).blk t).view.read (Elt Ideal)
      (linG (V c (Pipeline.arrRef spec4 0)) (V c (Pipeline.arrRef spec4 1)) (V c (Pipeline.arrRef spec4 2))) := by
  show (cfg4.win 3).cut (grid4.coords t) ((datR4 V c).after 3 t) = _
  rw [afterR4_3]; unfold outR4; rw [outLin_eq]
  funext j
  exact block_eq_linG (V c (Pipeline.arrRef spec4 0)) (V c (Pipeline.arrRef spec4 1)) (V c (Pipeline.arrRef spec4 2)) t j

theorem finalR4 (c : Dev nD) :
    (datR4 V c).arrAt 3 cfg4.N = linG (V c (Pipeline.arrRef spec4 0)) (V c (Pipeline.arrRef spec4 1)) (V c (Pipeline.arrRef spec4 2)) :=
  (datR4 V c).arrAt_eq_of_cover 3 _ (fun t _ => flushedR4_eq V c t) tiles

end

end Cert.KernelIdeal.HandV

end
-- ==== Proof.KI.AttnBlocks.lean ====
import proofs.«418154_j20864951124059_3_alg».proof.Proof.KI.Attn
import proofs.«418154_j20864951124059_3_alg».proof.Proof.Spec
import Idealize.ShloMosaic.Lib.ValueIdx
import Idealize.ShloMosaic.Lib.Pipeline.Value

-- which rows, keys and columns of the arrays a grid point's blocks are, and the cover of the output array by the stored blocks

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem pt_lt (t : Fin cfg3.N) : t.val < 128 := by
  have h := t.isLt; have e : cfg3.N = 128 := N_3; omega

abbrev ptB (t : Fin cfg3.N) : Fin 2 := ⟨t.val / 64, by have := pt_lt t; omega⟩
abbrev ptH (t : Fin cfg3.N) : Fin 16 := ⟨t.val / 4 % 16, by omega⟩
abbrev ptK (t : Fin cfg3.N) : Fin 4 := ⟨t.val % 4, by omega⟩

abbrev rowOf (b : Fin 2) (i : Fin 2048) : Fin 4096 := ⟨b.val * 2048 + i.val, by omega⟩
abbrev keyOf (ki : Fin 4) (u : Fin 1024) : Fin 4096 := ⟨ki.val * 1024 + u.val, by omega⟩

theorem idx_factsR3 : ∀ t : Fin cfg3.N, win3_0.index t (0 : Fin 2) = t.val / 64
    ∧ win3_0.index t (1 : Fin 2) = t.val / 4 % 16
    ∧ win3_1.index t (0 : Fin 4) = t.val / 64
    ∧ win3_1.index t (1 : Fin 4) = t.val / 4 % 16
    ∧ win3_1.index t (2 : Fin 4) = t.val % 4
    ∧ win3_1.index t (3 : Fin 4) = 0
    ∧ win3_2.index t (0 : Fin 4) = t.val / 64
    ∧ win3_2.index t (1 : Fin 4) = t.val / 4 % 16
    ∧ win3_2.index t (2 : Fin 4) = t.val % 4
    ∧ win3_2.index t (3 : Fin 4) = 0
    ∧ win3_3.index t (0 : Fin 2) = t.val / 64
    ∧ win3_3.index t (1 : Fin 2) = t.val / 4 % 16 :=
  (by decide +kernel : ∀ t : Fin grid3.N, _)

section
variable (V : (c : Dev nD) → (b : Ref sig .tc) → Buf (Elt Ideal) ((c : Thread nD τ).loc b))

theorem qblk_at (c : Dev nD) (t : Fin cfg3.N) (i : Fin 2048) (d' : Fin 128) :
    (iblkR3 V c 0 t : S2048x128.Idx → EReal) (ix2 i d')
      = (V c (Pipeline.arrRef spec3 0) : S4096x2048.Idx → EReal) (ix2 (rowOf (ptB t) i) (Cert.Spec.hd (ptH t) d')) := by
  obtain ⟨e0, e1, e2, e3, e4, e5, e6, e7, e8, e9, e10, e11⟩ := idx_factsR3 t
  show V c (Pipeline.arrRef spec3 0) (((cfg3.win 0).blk t).view.emb (ix2 i d')) = _
  refine congrArg (V c (Pipeline.arrRef spec3 0)) (funext fun a => Fin.ext ?_)
  match a with
  | ⟨0, _⟩ => show win3_0.index t (0 : Fin 2) * 2048 + 1 * i.val = t.val / 64 * 2048 + i.val; omega
  | ⟨1, _⟩ => show win3_0.index t (1 : Fin 2) * 128 + 1 * d'.val = t.val / 4 % 16 * 128 + d'.val; omega

theorem kblk_at (c : Dev nD) (t : Fin cfg3.N) (u0 u1 : Fin 1) (u : Fin 1024) (d' : Fin 128) :
    (iblkR3 V c 1 t : S1x1x1024x128.Idx → EReal) (ix4 u0 u1 u d')
      = (V c (Pipeline.arrRef spec3 1) : S2x16x4096x128.Idx → EReal) (ix4 (ptB t) (ptH t) (keyOf (ptK t) u) d') := by
  obtain ⟨e0, e1, e2, e3, e4, e5, e6, e7, e8, e9, e10, e11⟩ := idx_factsR3 t
  have h0 : u0.val = 0 := by omega
  have h1 : u1.val = 0 := by omega
  show V c (Pipeline.arrRef spec3 1) (((cfg3.win 1).blk t).view.emb (ix4 u0 u1 u d')) = _
  refine congrArg (V c (Pipeline.arrRef spec3 1)) (funext fun a => Fin.ext ?_)
  match a with
  | ⟨0, _⟩ => show win3_1.index t (0 : Fin 4) * 1 + 1 * u0.val = t.val / 64; omega
  | ⟨1, _⟩ => show win3_1.index t (1 : Fin 4) * 1 + 1 * u1.val = t.val / 4 % 16; omega
  | ⟨2, _⟩ => show win3_1.index t (2 : Fin 4) * 1024 + 1 * u.val = t.val % 4 * 1024 + u.val; omega
  | ⟨3, _⟩ => show win3_1.index t (3 : Fin 4) * 128 + 1 * d'.val = d'.val; omega

theorem vblk_at (c : Dev nD) (t : Fin cfg3.N) (u0 u1 : Fin 1) (u : Fin 1024) (d' : Fin 128) :
    (iblkR3 V c 2 t : S1x1x1024x128.Idx → EReal) (ix4 u0 u1 u d')
      = (V c (Pipeline.arrRef spec3 2) : S2x16x4096x128.Idx → EReal) (ix4 (ptB t) (ptH t) (keyOf (ptK t) u) d') := by
  obtain ⟨e0, e1, e2, e3, e4, e5, e6, e7, e8, e9, e10, e11⟩ := idx_factsR3 t
  have h0 : u0.val = 0 := by omega
  have h1 : u1.val = 0 := by omega
  show V c (Pipeline.arrRef spec3 2) (((cfg3.win 2).blk t).view.emb (ix4 u0 u1 u d')) = _
  refine congrArg (V c (Pipeline.arrRef spec3 2)) (funext fun a => Fin.ext ?_)
  match a with
  | ⟨0, _⟩ => show win3_2.index t (0 : Fin 4) * 1 + 1 * u0.val = t.val / 64; omega
  | ⟨1, _⟩ => show win3_2.index t (1 : Fin 4) * 1 + 1 * u1.val = t.val / 4 % 16; omega
  | ⟨2, _⟩ => show win3_2.index t (2 : Fin 4) * 1024 + 1 * u.val = t.val % 4 * 1024 + u.val; omega
  | ⟨3, _⟩ => show win3_2.index t (3 : Fin 4) * 128 + 1 * d'.val = d'.val; omega

end

theorem oblk_emb (t : Fin cfg3.N) (i : Fin 2048) (d' : Fin 128) :
    (((cfg3.win 3).blk t).view.emb (ix2 i d') : S4096x2048.Idx) = ix2 (rowOf (ptB t) i) (Cert.Spec.hd (ptH t) d') := by
  obtain ⟨e0, e1, e2, e3, e4, e5, e6, e7, e8, e9, e10, e11⟩ := idx_factsR3 t
  refine funext fun a => Fin.ext ?_
  match a with
  | ⟨0, _⟩ => show win3_3.index t (0 : Fin 2) * 2048 + 1 * i.val = t.val / 64 * 2048 + i.val; omega
  | ⟨1, _⟩ => show win3_3.index t (1 : Fin 2) * 128 + 1 * d'.val = t.val / 4 % 16 * 128 + d'.val; omega

theorem mem_blkR3 (t : Fin cfg3.N) (j : S4096x2048.Idx) :
    j ∈ ((cfg3.win 3).blk t).view.set ↔ (j 0).val / 2048 = t.val / 64 ∧ (j 1).val / 128 = t.val / 4 % 16 := by
  obtain ⟨e0, e1, e2, e3, e4, e5, e6, e7, e8, e9, e10, e11⟩ := idx_factsR3 t
  show j ∈ ((View.whole main_v18).slice (win3_3.rect t)).set ↔ _
  rw [View.set_slice_whole, Rect.mem_set_unit]
  constructor
  · intro h
    have h0 : win3_3.index t (0 : Fin 2) * 2048 ≤ (j 0).val ∧ (j 0).val < win3_3.index t (0 : Fin 2) * 2048 + 2048 := h 0
    have h1 : win3_3.index t (1 : Fin 2) * 128 ≤ (j 1).val ∧ (j 1).val < win3_3.index t (1 : Fin 2) * 128 + 128 := h 1
    omega
  · intro h a
    match a with
    | ⟨0, _⟩ =>
      show win3_3.index t (0 : Fin 2) * 2048 ≤ (j 0).val ∧ (j 0).val < win3_3.index t (0 : Fin 2) * 2048 + 2048
      omega
    | ⟨1, _⟩ =>
      show win3_3.index t (1 : Fin 2) * 128 ≤ (j 1).val ∧ (j 1).val < win3_3.index t (1 : Fin 2) * 128 + 128
      omega

theorem tilesR3 (j : S4096x2048.Idx) :
    ∃ t : Fin cfg3.N, (cfg3.win 3).flush t = true ∧ j ∈ ((cfg3.win 3).blk t).view.set := by
  have hj0 : (j 0).val < 4096 := (j 0).isLt
  have hj1 : (j 1).val < 2048 := (j 1).isLt
  have ht : ((j 0).val / 2048 * 16 + (j 1).val / 128) * 4 + 3 < grid3.N := by rw [N_3]; omega
  refine ⟨⟨((j 0).val / 2048 * 16 + (j 1).val / 128) * 4 + 3, ht⟩, (flush3_3 _).mpr ?_, (mem_blkR3 _ j).mpr ?_⟩
  · show (((j 0).val / 2048 * 16 + (j 1).val / 128) * 4 + 3) % 4 = 3
    omega
  · show (j 0).val / 2048 = (((j 0).val / 2048 * 16 + (j 1).val / 128) * 4 + 3) / 64
        ∧ (j 1).val / 128 = (((j 0).val / 2048 * 16 + (j 1).val / 128) * 4 + 3) / 4 % 16
    omega

end Cert.KernelIdeal.HandV

end
-- ==== Proof.Softmax.lean ====
import proofs.«418154_j20864951124059_3_alg».proof.Proof.Spec
import Mathlib.Data.Finset.Fold
import Mathlib.Algebra.BigOperators.Fin
import Mathlib.Logic.Equiv.Fin.Basic

-- the softmax streamed over four chunks is the whole-row softmax when every score is real:
-- exp (m - m') * exp (s - m) = exp (s - m'), and the first update, from -∞, contributes exp (-∞) = 0

noncomputable section

namespace Cert.Softmax

open Idealize.ShloMosaic

def chunk (f : Fin 4096 → EReal) (j : Fin 4) : Fin 1024 → EReal := fun u => f ⟨j.val * 1024 + u.val, by omega⟩

def step (sj vj : Fin 1024 → EReal) (st : EReal × EReal × EReal) : EReal × EReal × EReal :=
  let mn := max st.1 ((Finset.univ : Finset (Fin 1024)).fold max ⊥ sj)
  let a := Ideal.exp (st.1 - mn)
  (mn, a * st.2.1 + ∑ u : Fin 1024, Ideal.exp (sj u - mn), a * st.2.2 + ∑ u : Fin 1024, Ideal.exp (sj u - mn) * vj u)

def run4 (s v : Fin 4096 → EReal) : EReal × EReal × EReal :=
  step (chunk s 3) (chunk v 3) (step (chunk s 2) (chunk v 2) (step (chunk s 1) (chunk v 1) (step (chunk s 0) (chunk v 0) (⊥, 0, 0))))

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem fold_coe (x : Fin 1024 → ℝ) :
    ∃ c : ℝ, (Finset.univ : Finset (Fin 1024)).fold max ⊥ (fun u => (x u : EReal)) = (c : EReal) := by
  have hle : ∀ u, (x u : EReal) ≤ (Finset.univ : Finset (Fin 1024)).fold max ⊥ (fun u => (x u : EReal)) :=
    fun u => ((Finset.fold_max_le (f := fun u => (x u : EReal)) _).1 le_rfl).2 u (Finset.mem_univ u)
  rcases (Finset.le_fold_max (f := fun u => (x u : EReal)) _).1
      (le_refl ((Finset.univ : Finset (Fin 1024)).fold max ⊥ (fun u => (x u : EReal)))) with h | ⟨u, _, h⟩
  · exact ⟨x 0, le_antisymm (h.trans bot_le) (hle 0)⟩
  · exact ⟨x u, le_antisymm h (hle u)⟩

def L (x : Fin 1024 → ℝ) (m : ℝ) : ℝ := ∑ u, Real.exp (x u - m)

def A (x w : Fin 1024 → ℝ) (m : ℝ) : ℝ := ∑ u, Real.exp (x u - m) * w u

theorem L_shift (x : Fin 1024 → ℝ) (m m' : ℝ) : Real.exp (m - m') * L x m = L x m' := by
  unfold L
  rw [Finset.mul_sum]
  refine Finset.sum_congr rfl fun u _ => ?_
  rw [← Real.exp_add]; congr 1; ring

theorem A_shift (x w : Fin 1024 → ℝ) (m m' : ℝ) : Real.exp (m - m') * A x w m = A x w m' := by
  unfold A
  rw [Finset.mul_sum]
  refine Finset.sum_congr rfl fun u _ => ?_
  rw [← mul_assoc, ← Real.exp_add]; congr 2; ring

theorem step_init (x w : Fin 1024 → ℝ) (c : ℝ)
    (hc : (Finset.univ : Finset (Fin 1024)).fold max ⊥ (fun u => (x u : EReal)) = (c : EReal)) :
    step (fun u => (x u : EReal)) (fun u => (w u : EReal)) (⊥, 0, 0)
      = ((c : EReal), ((L x c : ℝ) : EReal), ((A x w c : ℝ) : EReal)) := by
  have hb : max (⊥ : EReal) (c : EReal) = (c : EReal) := max_eq_right bot_le
  simp only [step, hc, hb, EReal.bot_sub, Ideal.exp_bot, zero_mul, zero_add, L, A, coe_sum,
    EReal.coe_mul, ← EReal.coe_sub, Ideal.exp_coe]

theorem step_coe (x w : Fin 1024 → ℝ) (c m l a : ℝ)
    (hc : (Finset.univ : Finset (Fin 1024)).fold max ⊥ (fun u => (x u : EReal)) = (c : EReal)) :
    step (fun u => (x u : EReal)) (fun u => (w u : EReal)) ((m : EReal), (l : EReal), (a : EReal))
      = (((max m c : ℝ) : EReal), ((Real.exp (m - max m c) * l + L x (max m c) : ℝ) : EReal),
          ((Real.exp (m - max m c) * a + A x w (max m c) : ℝ) : EReal)) := by
  simp only [step, hc, ← coe_max, L, A, coe_sum, EReal.coe_add, EReal.coe_mul, ← EReal.coe_sub, Ideal.exp_coe]

def rchunk (f : Fin 4096 → ℝ) (j : Fin 4) : Fin 1024 → ℝ := fun u => f ⟨j.val * 1024 + u.val, by omega⟩

theorem chunk_coe (f : Fin 4096 → ℝ) (j : Fin 4) :
    chunk (fun t => (f t : EReal)) j = fun u => ((rchunk f j u : ℝ) : EReal) := rfl

theorem sum_chunks (g : Fin 4096 → ℝ) :
    ∑ t, g t = (∑ u, rchunk g 0 u) + (∑ u, rchunk g 1 u) + (∑ u, rchunk g 2 u) + (∑ u, rchunk g 3 u) := by
  rw [← Fin.sum_univ_four (fun j => ∑ u, rchunk g j u), ← Fintype.sum_prod_type' (fun j u => rchunk g j u)]
  symm
  refine Fintype.sum_equiv (finProdFinEquiv : Fin 4 × Fin 1024 ≃ Fin (4 * 1024)) _ _ (fun p => ?_)
  show g ⟨p.1.val * 1024 + p.2.val, _⟩ = g ⟨p.2.val + 1024 * p.1.val, _⟩
  congr 1
  apply Fin.ext
  show p.1.val * 1024 + p.2.val = p.2.val + 1024 * p.1.val
  omega

def cmax (s : Fin 4096 → EReal) (j : Fin 4) : EReal := (Finset.univ : Finset (Fin 1024)).fold max ⊥ (chunk s j)

theorem rowMax_chunks (s : Fin 4096 → EReal) :
    Cert.Spec.rowMax s = max (max (max (max ⊥ (cmax s 0)) (cmax s 1)) (cmax s 2)) (cmax s 3) := by
  have hrow : ∀ t, s t ≤ Cert.Spec.rowMax s := fun t =>
    ((Finset.fold_max_le (f := s) _).1 (le_refl (Cert.Spec.rowMax s))).2 t (Finset.mem_univ t)
  have hF : ∀ j, cmax s j ≤ Cert.Spec.rowMax s := fun j =>
    (Finset.fold_max_le (f := chunk s j) _).2 ⟨bot_le, fun u _ => hrow _⟩
  have hG : ∀ j, cmax s j ≤ max (max (max (max ⊥ (cmax s 0)) (cmax s 1)) (cmax s 2)) (cmax s 3) := by
    intro j
    fin_cases j
    · exact le_max_of_le_left (le_max_of_le_left (le_max_of_le_left (le_max_right _ _)))
    · exact le_max_of_le_left (le_max_of_le_left (le_max_right _ _))
    · exact le_max_of_le_left (le_max_right _ _)
    · exact le_max_right _ _
  apply le_antisymm
  · refine (Finset.fold_max_le (f := s) _).2 ⟨bot_le, fun t _ => ?_⟩
    have ht : t.val < 4096 := t.isLt
    have hst : s t = chunk s ⟨t.val / 1024, by omega⟩ ⟨t.val % 1024, by omega⟩ := by
      unfold chunk
      congr 1
      apply Fin.ext
      show t.val = t.val / 1024 * 1024 + t.val % 1024
      omega
    rw [hst]
    exact le_trans (((Finset.fold_max_le (f := chunk s _) _).1 (le_refl (cmax s _))).2 _ (Finset.mem_univ _)) (hG _)
  · exact max_le (max_le (max_le (max_le bot_le (hF 0)) (hF 1)) (hF 2)) (hF 3)

theorem online_eq (s v : Fin 4096 → EReal) (hs : ∀ t, ∃ r : ℝ, s t = (r : EReal)) (hv : ∀ t, ∃ r : ℝ, v t = (r : EReal)) :
    Ideal.div (run4 s v).2.2 (run4 s v).2.1 = Cert.Spec.attend s v := by
  choose sr hsr using hs
  choose vr hvr using hv
  obtain rfl : s = fun t => (sr t : EReal) := funext hsr
  obtain rfl : v = fun t => (vr t : EReal) := funext hvr
  obtain ⟨c0, h0⟩ := fold_coe (rchunk sr 0)
  obtain ⟨c1, h1⟩ := fold_coe (rchunk sr 1)
  obtain ⟨c2, h2⟩ := fold_coe (rchunk sr 2)
  obtain ⟨c3, h3⟩ := fold_coe (rchunk sr 3)

  obtain ⟨M, hM⟩ : ∃ M : ℝ, M = max (max (max c0 c1) c2) c3 := ⟨_, rfl⟩
  obtain ⟨Z, hZdef⟩ : ∃ Z : ℝ, Z = ∑ t, Real.exp (sr t - M) := ⟨_, rfl⟩
  obtain ⟨N, hNdef⟩ : ∃ N : ℝ, N = ∑ t, Real.exp (sr t - M) * vr t := ⟨_, rfl⟩
  have hZ : 0 < Z := by
    rw [hZdef]
    exact Finset.sum_pos (fun t _ => Real.exp_pos _) ⟨0, Finset.mem_univ _⟩

  have hrun : run4 (fun t => (sr t : EReal)) (fun t => (vr t : EReal)) = ((M : EReal), (Z : EReal), (N : EReal)) := by
    simp only [run4, chunk_coe]
    rw [step_init _ _ c0 h0, step_coe _ _ c1 _ _ _ h1, step_coe _ _ c2 _ _ _ h2, step_coe _ _ c3 _ _ _ h3, ← hM]
    simp only [mul_add, L_shift, A_shift]
    rw [hZdef, hNdef, sum_chunks (fun t => Real.exp (sr t - M)), sum_chunks (fun t => Real.exp (sr t - M) * vr t)]
    rfl

  have hmax : Cert.Spec.rowMax (fun t => (sr t : EReal)) = (M : EReal) := by
    rw [rowMax_chunks]
    simp only [cmax, chunk_coe]
    rw [h0, h1, h2, h3, max_eq_right (bot_le : (⊥ : EReal) ≤ (c0 : EReal)), ← coe_max, ← coe_max, ← coe_max, ← hM]
  have hden : (∑ t' : Fin 4096, Ideal.exp ((sr t' : EReal) - (M : EReal))) = (Z : EReal) := by
    rw [hZdef, coe_sum]
    rfl
  have hatt : Cert.Spec.attend (fun t => (sr t : EReal)) (fun t => (vr t : EReal))
      = ((∑ t, Real.exp (sr t - M) * (1 / Z) * vr t : ℝ) : EReal) := by
    unfold Cert.Spec.attend Cert.Spec.weight
    rw [hmax, hden, coe_sum]
    refine Finset.sum_congr rfl fun t _ => ?_
    rw [Ideal.div_coe hZ.ne', ← EReal.coe_sub, Ideal.exp_coe, ← EReal.coe_mul, ← EReal.coe_mul]
  rw [hrun, hatt]
  show Ideal.div (N : EReal) (Z : EReal) = _
  rw [Ideal.div_coe hZ.ne', ← EReal.coe_mul, hNdef, Finset.sum_mul]
  refine congrArg Real.toEReal (Finset.sum_congr rfl fun t _ => ?_)
  ring

end Cert.Softmax

end
-- ==== Proof.LibKeepdimsColumn.lean ====
import Idealize.ShloMosaic.Lib.Pipeline.Value
import Idealize.ShloMosaic.Lib.ValueIdx
import Idealize.ShloMosaic.PureOps.Ideal.Laws

-- a column kept as an n×1 array, read at an index: the reshape to it, its broadcast along a row, its transpose, and a sum along the second axis into it

noncomputable section

namespace Idealize.ShloMosaic.KeepdimsColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KI.AttnStep.lean ====
import proofs.«418154_j20864951124059_3_alg».proof.Proof.Gen.KernelIdeal.Skeleton
import proofs.«418154_j20864951124059_3_alg».proof.Proof.Softmax
import proofs.«418154_j20864951124059_3_alg».proof.Proof.Spec
import proofs.«418154_j20864951124059_3_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

-- the terms of one chunk update read at an index: scores as sums over the head dimension, the row maximum as a fold,
-- the exponentials, the row sum and the weighted sum of values

noncomputable section

namespace Cert.KernelIdeal.HandV

open Cert.KernelIdeal Cert.KernelIdeal.Gen
open Idealize.ShloMosaic Idealize.ShloMosaic.TcCoe Idealize.SL.Sem
open Idealize.ShloMosaic.ValueIdx Idealize.ShloMosaic.KeepdimsColumn
open scoped BigOperators

def attnS (q : Vec Ideal S2048x128 .bf16) (k : Vec Ideal S1x1x1024x128 .f32) (i : Fin 2048) : Fin 1024 → EReal :=
  fun u => (∑ d' : Fin 128, q (ix2 i d') * k (ix4 0 0 u d')) * Cert.Spec.scale

def attnV (v : Vec Ideal S1x1x1024x128 .f32) (d : Fin 128) : Fin 1024 → EReal :=
  fun u => v (ix4 0 0 u d)

theorem cast_kv_apply (x : Vec Ideal S1x1x1024x128 .f32) (u : Fin 1024) (c : Fin 128) :
    shapeCast S1024x128 x shapeCasts_S1x1x1024x128_S1024x128 (ix2 u c) = x (ix4 0 0 u c) :=
  shapeCast_apply x shapeCasts_S1x1x1024x128_S1024x128 (ix2 u c) (ix4 0 0 u c) (by
    rw [Shape.rowMajor_val_four, Shape.rowMajor_val_two]
    show ((0 * 1 + 0) * 1024 + u.val) * 128 + c.val = u.val * 128 + c.val
    omega)

theorem lhs_qk_0 (j : S2048x1024.Idx) (c : dot_S2048x128_S1024x128_S2048x1024_1_1_0_0_n_n.contr.Idx) :
    (dot_S2048x128_S1024x128_S2048x1024_1_1_0_0_n_n.lhsIdx j c 0).val = (j 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem lhs_qk_1 (j : S2048x1024.Idx) (c : dot_S2048x128_S1024x128_S2048x1024_1_1_0_0_n_n.contr.Idx) :
    (dot_S2048x128_S1024x128_S2048x1024_1_1_0_0_n_n.lhsIdx j c 1).val = (c ⟨0, by decide⟩).val :=
  dot_S2048x128_S1024x128_S2048x1024_1_1_0_0_n_n.lhsIdx_val_of_single rfl j c
theorem rhs_qk_0 (j : S2048x1024.Idx) (c : dot_S2048x128_S1024x128_S2048x1024_1_1_0_0_n_n.contr.Idx) :
    (dot_S2048x128_S1024x128_S2048x1024_1_1_0_0_n_n.rhsIdx j c 0).val = (j 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem rhs_qk_1 (j : S2048x1024.Idx) (c : dot_S2048x128_S1024x128_S2048x1024_1_1_0_0_n_n.contr.Idx) :
    (dot_S2048x128_S1024x128_S2048x1024_1_1_0_0_n_n.rhsIdx j c 1).val = (c ⟨0, by decide⟩).val :=
  dot_S2048x128_S1024x128_S2048x1024_1_1_0_0_n_n.rhsIdx_val_of_single rfl j c

theorem matmul_qk_apply (x : FVec Ideal S2048x128 .bf16) (w : FVec Ideal S1024x128 .bf16) (p : Fin 2048) (u : Fin 1024) :
    matmul dot_S2048x128_S1024x128_S2048x1024_1_1_0_0_n_n none x w (constant (F := Ideal) S2048x1024 .f32 0x00000000#32) (ix2 p u)
      = ∑ c : Fin 128, x (ix2 p c) * w (ix2 u c) := by
  simp only [matmul]
  rw [Ideal.matmul_constant_zero_apply, ← Equiv.sum_comp (contrEquiv1 dot_S2048x128_S1024x128_S2048x1024_1_1_0_0_n_n 128 rfl rfl).symm]
  refine Finset.sum_congr rfl fun c _ => ?_
  have hc := contrEquiv1_symm_val dot_S2048x128_S1024x128_S2048x1024_1_1_0_0_n_n 128 rfl rfl c
  have el : dot_S2048x128_S1024x128_S2048x1024_1_1_0_0_n_n.lhsIdx (ix2 p u) ((contrEquiv1 dot_S2048x128_S1024x128_S2048x1024_1_1_0_0_n_n 128 rfl rfl).symm c) = ix2 p c := funext fun a => Fin.ext (by
    match a with
    | ⟨0, _⟩ => exact lhs_qk_0 _ _
    | ⟨1, _⟩ => exact (lhs_qk_1 _ _).trans hc)
  have er : dot_S2048x128_S1024x128_S2048x1024_1_1_0_0_n_n.rhsIdx (ix2 p u) ((contrEquiv1 dot_S2048x128_S1024x128_S2048x1024_1_1_0_0_n_n 128 rfl rfl).symm c) = ix2 u c := funext fun a => Fin.ext (by
    match a with
    | ⟨0, _⟩ => exact rhs_qk_0 _ _
    | ⟨1, _⟩ => exact (rhs_qk_1 _ _).trans hc)
  rw [el, er]

theorem lhs_pv_0 (j : S2048x128.Idx) (c : dot_S2048x1024_S1024x128_S2048x128_1_0_0_1_n_n.contr.Idx) :
    (dot_S2048x1024_S1024x128_S2048x128_1_0_0_1_n_n.lhsIdx j c 0).val = (j 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_pv_1 (j : S2048x128.Idx) (c : dot_S2048x1024_S1024x128_S2048x128_1_0_0_1_n_n.contr.Idx) :
    (dot_S2048x1024_S1024x128_S2048x128_1_0_0_1_n_n.lhsIdx j c 1).val = (c ⟨0, by decide⟩).val :=
  dot_S2048x1024_S1024x128_S2048x128_1_0_0_1_n_n.lhsIdx_val_of_single rfl j c
theorem rhs_pv_0 (j : S2048x128.Idx) (c : dot_S2048x1024_S1024x128_S2048x128_1_0_0_1_n_n.contr.Idx) :
    (dot_S2048x1024_S1024x128_S2048x128_1_0_0_1_n_n.rhsIdx j c 0).val = (c ⟨0, by decide⟩).val :=
  dot_S2048x1024_S1024x128_S2048x128_1_0_0_1_n_n.rhsIdx_val_of_single rfl j c
theorem rhs_pv_1 (j : S2048x128.Idx) (c : dot_S2048x1024_S1024x128_S2048x128_1_0_0_1_n_n.contr.Idx) :
    (dot_S2048x1024_S1024x128_S2048x128_1_0_0_1_n_n.rhsIdx j c 1).val = (j 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

theorem matmul_pv_apply (x : FVec Ideal S2048x1024 .bf16) (w : FVec Ideal S1024x128 .bf16) (p : Fin 2048) (e : Fin 128) :
    matmul dot_S2048x1024_S1024x128_S2048x128_1_0_0_1_n_n none x w (constant (F := Ideal) S2048x128 .f32 0x00000000#32) (ix2 p e)
      = ∑ u : Fin 1024, x (ix2 p u) * w (ix2 u e) := by
  simp only [matmul]
  rw [Ideal.matmul_constant_zero_apply, ← Equiv.sum_comp (contrEquiv1 dot_S2048x1024_S1024x128_S2048x128_1_0_0_1_n_n 1024 rfl rfl).symm]
  refine Finset.sum_congr rfl fun u _ => ?_
  have hu := contrEquiv1_symm_val dot_S2048x1024_S1024x128_S2048x128_1_0_0_1_n_n 1024 rfl rfl u
  have el : dot_S2048x1024_S1024x128_S2048x128_1_0_0_1_n_n.lhsIdx (ix2 p e) ((contrEquiv1 dot_S2048x1024_S1024x128_S2048x128_1_0_0_1_n_n 1024 rfl rfl).symm u) = ix2 p u := funext fun a => Fin.ext (by
    match a with
    | ⟨0, _⟩ => exact lhs_pv_0 _ _
    | ⟨1, _⟩ => exact (lhs_pv_1 _ _).trans hu)
  have er : dot_S2048x1024_S1024x128_S2048x128_1_0_0_1_n_n.rhsIdx (ix2 p e) ((contrEquiv1 dot_S2048x1024_S1024x128_S2048x128_1_0_0_1_n_n 1024 rfl rfl).symm u) = ix2 u e := funext fun a => Fin.ext (by
    match a with
    | ⟨0, _⟩ => exact (rhs_pv_0 _ _).trans hu
    | ⟨1, _⟩ => exact rhs_pv_1 _ _)
  rw [el, er]

section
variable (q : Vec Ideal S2048x128 .bf16) (k v : Vec Ideal S1x1x1024x128 .f32) (xm xl : Vec Ideal S2048x1 .f32)
  (xa : Vec Ideal S2048x128 .f32) (i : Fin 2048) (d : Fin 128)

theorem pay8_apply (u : Fin 1024) (e : Fin 128) : k3_pay8 v (ix2 u e) = v (ix4 0 0 u e) := by
  unfold k3_pay8
  exact cast_kv_apply v u e

theorem pay9_apply (u : Fin 1024) : k3_pay9 q k (ix2 i u) = attnS q k i u := by
  unfold k3_pay9 attnS
  simp only [shapeCast_self]
  rw [mulf_apply, matmul_qk_apply]
  refine congrArg₂ (· * ·) (Finset.sum_congr rfl fun c _ => ?_) rfl
  exact congrArg (q (ix2 i c) * ·) (cast_kv_apply k u c)

theorem ofBits_neg_inf : FloatOps.ofBits (F := Ideal) .f32 0xFF800000#32 = (⊥ : EReal) := by
  simp [Ideal.ofBits, Ideal.ieee]

theorem pay10_apply :
    k3_pay10 q k xm (ix2 i 0) = max (xm (ix2 i 0)) ((Finset.univ : Finset (Fin 1024)).fold max ⊥ (attnS q k i)) := by
  unfold k3_pay10
  refine congrArg (max (xm (ix2 i 0))) ?_
  refine (shapeCast_a_a1_apply _ shapeCasts_S2048_S2048x1 i 0).trans ?_
  refine (Ideal.multiReduction_maximumf_single _ _ _ _ _ (ix1 i)).trans ?_
  have hf : (k3_pay9 q k ∘ reduces_S2048x1024_S2048.lift (ix1 i)) = attnS q k i := funext fun (u : Fin 1024) => by
    refine Eq.trans ?_ (pay9_apply q k i u)
    exact congrArg (k3_pay9 q k) (funext fun c => Fin.ext (by
      match c with
      | ⟨0, _⟩ => rfl
      | ⟨1, _⟩ => rfl))
  rw [ofBits_neg_inf, hf]
  rfl

theorem pay11_apply (xm' : Vec Ideal S2048x1 .f32) :
    k3_pay11 q k xm xm' (ix2 i 0) = Ideal.exp (xm' (ix2 i 0) - k3_pay10 q k xm (ix2 i 0)) := rfl

theorem pay12_apply (u : Fin 1024) :
    k3_pay12 q k xm (ix2 i u) = Ideal.exp (attnS q k i u - k3_pay10 q k xm (ix2 i 0)) := by
  unfold k3_pay12
  show Ideal.exp (k3_pay9 q k (ix2 i u) - broadcastTo S2048x1024 (k3_pay10 q k xm) broadcasts_S2048x1_S2048x1024 (ix2 i u)) = _
  rw [pay9_apply]
  exact congrArg (fun z => Ideal.exp (attnS q k i u - z)) (broadcastTo_a1_ab_apply (k3_pay10 q k xm) broadcasts_S2048x1_S2048x1024 i u)

theorem pay14_apply (xm' : Vec Ideal S2048x1 .f32) :
    k3_pay14 q k xm xm' xl (ix2 i 0)
      = Ideal.exp (xm' (ix2 i 0) - k3_pay10 q k xm (ix2 i 0)) * xl (ix2 i 0)
        + ∑ u : Fin 1024, Ideal.exp (attnS q k i u - k3_pay10 q k xm (ix2 i 0)) := by
  unfold k3_pay14
  refine congrArg (k3_pay11 q k xm xm' (ix2 i 0) * xl (ix2 i 0) + ·) ?_
  refine (shapeCast_a_a1_apply _ shapeCasts_S2048_S2048x1 i 0).trans ?_
  refine (laneSum_ab_apply (k3_pay12 q k xm) _ reduces_S2048x1024_S2048 _ _ i).trans ?_
  exact Finset.sum_congr rfl fun u _ => pay12_apply q k xm i u

theorem pay_m_apply :
    k3_pay3 (k3_pay10 q k xm) (ix2 i 0)
      = (Cert.Softmax.step (attnS q k i) (attnV v d) (xm (ix2 i 0), xl (ix2 i 0), xa (ix2 i d))).1 := by
  unfold k3_pay3
  simp only [shapeCast_self]
  exact pay10_apply q k xm i

theorem pay_l_apply :
    k3_pay1 (k3_pay14 q k xm xm xl) (ix2 i 0)
      = (Cert.Softmax.step (attnS q k i) (attnV v d) (xm (ix2 i 0), xl (ix2 i 0), xa (ix2 i d))).2.1 := by
  unfold k3_pay1
  simp only [shapeCast_self]
  rw [pay14_apply, pay10_apply]
  rfl

theorem pay_acc_apply :
    k3_pay2 (k3_pay8 v) (k3_pay11 q k xm xm) (k3_pay13 q k xm) xa (ix2 i d)
      = (Cert.Softmax.step (attnS q k i) (attnV v d) (xm (ix2 i 0), xl (ix2 i 0), xa (ix2 i d))).2.2 := by
  unfold k3_pay2
  simp only [shapeCast_self]
  rw [addf_apply, mulf_apply, matmul_pv_apply]
  have hb := broadcastTo_a1_ab_apply (k3_pay11 q k xm xm) broadcasts_S2048x1_S2048x128 i d
  have hs : (∑ u : Fin 1024, k3_pay13 q k xm (ix2 i u) * k3_pay8 v (ix2 u d))
      = ∑ u : Fin 1024, Ideal.exp (attnS q k i u - k3_pay10 q k xm (ix2 i 0)) * attnV v d u :=
    Finset.sum_congr rfl fun u _ => congrArg₂ (· * ·) (pay12_apply q k xm i u) (pay8_apply v u d)
  rw [hb, hs, pay11_apply, pay10_apply]
  rfl

theorem pay5_apply : k3_pay5 (F := Ideal) (ix2 i 0) = (⊥ : EReal) := by
  unfold k3_pay5
  simp only [shapeCast_self]
  exact ofBits_neg_inf

theorem pay6_apply : k3_pay6 (F := Ideal) (ix2 i 0) = (0 : EReal) := by
  unfold k3_pay6
  simp only [shapeCast_self]
  exact Ideal.ofBits_zero_f32

theorem pay7_apply : k3_pay7 (F := Ideal) (ix2 i d) = (0 : EReal) := by
  unfold k3_pay7
  simp only [shapeCast_self]
  exact Ideal.ofBits_zero_f32

theorem pay4_apply (acc : Vec Ideal S2048x128 .f32) (l : Vec Ideal S2048x1 .f32) :
    k3_pay4 acc l (ix2 i d) = Ideal.div (acc (ix2 i d)) (l (ix2 i 0)) := by
  unfold k3_pay4
  exact congrArg (Ideal.div (acc (ix2 i d))) (broadcastTo_a1_ab_apply l broadcasts_S2048x1_S2048x128 i d)

end

end Cert.KernelIdeal.HandV

end
-- ==== Proof.KI.AttnRow.lean ====
import proofs.«418154_j20864951124059_3_alg».proof.Proof.KI.Attn
import proofs.«418154_j20864951124059_3_alg».proof.Proof.KI.AttnStep
import proofs.«418154_j20864951124059_3_alg».proof.Proof.Softmax

-- one row of queries at a time: each grid point is one update of the row's (maximum, sum, weighted sum)

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open scoped BigOperators

section
variable (V : (c : Dev nD) → (b : Ref sig .tc) → Buf (Elt Ideal) ((c : Thread nD τ).loc b))

def gpt (g : Fin 32) (j : Fin 4) : Fin cfg3.N := ⟨4 * g.val + j.val, by have hN : cfg3.N = 128 := N_3; omega⟩

def rowS (c : Dev nD) (t : Fin cfg3.N) (i : Fin 2048) : Fin 1024 → EReal :=
  attnS (iblkR3 V c 0 t) (iblkR3 V c 1 t) i

def colV (c : Dev nD) (t : Fin cfg3.N) (d : Fin 128) : Fin 1024 → EReal :=
  attnV (iblkR3 V c 2 t) d

def rowSt (c : Dev nD) (n : ℕ) (hn : n < cfg3.N) (i : Fin 2048) (d : Fin 128) : EReal × EReal × EReal :=
  ((outsAtR3 V c n hn).2.1 (ix2 i 0), (outsAtR3 V c n hn).2.2.1 (ix2 i 0), (outsAtR3 V c n hn).2.2.2 (ix2 i d))

def groupSt (c : Dev nD) (g : Fin 32) (i : Fin 2048) (d : Fin 128) : EReal × EReal × EReal :=
  Cert.Softmax.step (rowS V c (gpt g 3) i) (colV V c (gpt g 3) d)
    (Cert.Softmax.step (rowS V c (gpt g 2) i) (colV V c (gpt g 2) d)
      (Cert.Softmax.step (rowS V c (gpt g 1) i) (colV V c (gpt g 1) d)
        (Cert.Softmax.step (rowS V c (gpt g 0) i) (colV V c (gpt g 0) d) (⊥, 0, 0))))

theorem rowSt_congr (c : Dev nD) {n n' : ℕ} (e : n = n') (hn : n < cfg3.N) (hn' : n' < cfg3.N) (i : Fin 2048) (d : Fin 128) :
    rowSt V c n hn i d = rowSt V c n' hn' i d := by
  subst e; rfl

theorem rowSt_of (c : Dev nD) (t : Fin cfg3.N) (i : Fin 2048) (d : Fin 128)
    (m l : Vec Ideal S2048x1 .f32) (a : Vec Ideal S2048x128 .f32)
    (e : outsAtR3 V c t.val t.isLt = upd3 (F := Ideal) (iblkR3 V c 0 t) (iblkR3 V c 1 t) (iblkR3 V c 2 t) m l a) :
    rowSt V c t.val t.isLt i d
      = Cert.Softmax.step (rowS V c t i) (colV V c t d) (m (ix2 i 0), l (ix2 i 0), a (ix2 i d)) := by
  unfold rowSt rowS colV
  rw [e]
  exact Prod.ext (pay_m_apply _ _ _ _ _ _ i d) (Prod.ext (pay_l_apply _ _ _ _ _ _ i d) (pay_acc_apply _ _ _ _ _ _ i d))

theorem rowSt_first (c : Dev nD) (t : Fin cfg3.N) (h0 : t.val % 4 = 0) (i : Fin 2048) (d : Fin 128) :
    rowSt V c t.val t.isLt i d = Cert.Softmax.step (rowS V c t i) (colV V c t d) (⊥, 0, 0) := by
  have h := rowSt_of V c t i d _ _ _ (outsAtR3_first V c t h0)
  rw [pay5_apply, pay6_apply, pay7_apply] at h
  exact h

theorem rowSt_next (c : Dev nD) (t : Fin cfg3.N) (h0 : ¬t.val % 4 = 0) (i : Fin 2048) (d : Fin 128) :
    rowSt V c t.val t.isLt i d
      = Cert.Softmax.step (rowS V c t i) (colV V c t d) (rowSt V c (t.val - 1) (Nat.lt_of_le_of_lt (Nat.sub_le _ _) t.isLt) i d) := by
  exact rowSt_of V c t i d _ _ _ (outsAtR3_next V c t h0)

theorem out_last (c : Dev nD) (t : Fin cfg3.N) (h1 : t.val % 4 = 3) (i : Fin 2048) (d : Fin 128) :
    (outsAtR3 V c t.val t.isLt).1 (ix2 i d) = Ideal.div (rowSt V c t.val t.isLt i d).2.2 (rowSt V c t.val t.isLt i d).2.1 := by
  have h0 : ¬t.val % 4 = 0 := by omega
  have e : (outsAtR3 V c t.val t.isLt).1 = k3_pay4 (F := Ideal) (outsAtR3 V c t.val t.isLt).2.2.2 (outsAtR3 V c t.val t.isLt).2.2.1 :=
    by rw [outsAtR3_next V c t h0]; rfl
  exact (congrFun e (ix2 i d)).trans (pay4_apply i d _ _)

theorem group_out (c : Dev nD) (g : Fin 32) (i : Fin 2048) (d : Fin 128) :
    (outsAtR3 V c (gpt g 3).val (gpt g 3).isLt).1 (ix2 i d)
      = Ideal.div (groupSt V c g i d).2.2 (groupSt V c g i d).2.1 := by
  have e3 := out_last V c (gpt g 3) (by show (4 * g.val + 3) % 4 = 3; omega) i d
  have s3 := rowSt_next V c (gpt g 3) (by show ¬(4 * g.val + 3) % 4 = 0; omega) i d
  have s2 := rowSt_next V c (gpt g 2) (by show ¬(4 * g.val + 2) % 4 = 0; omega) i d
  have s1 := rowSt_next V c (gpt g 1) (by show ¬(4 * g.val + 1) % 4 = 0; omega) i d
  have s0 := rowSt_first V c (gpt g 0) (by show (4 * g.val + 0) % 4 = 0; omega) i d
  rw [rowSt_congr V c (show (gpt g 1).val - 1 = (gpt g 0).val from (by show 4 * g.val + 1 - 1 = 4 * g.val + 0; omega)) _ (gpt g 0).isLt i d, s0] at s1
  rw [rowSt_congr V c (show (gpt g 2).val - 1 = (gpt g 1).val from (by show 4 * g.val + 2 - 1 = 4 * g.val + 1; omega)) _ (gpt g 1).isLt i d, s1] at s2
  rw [rowSt_congr V c (show (gpt g 3).val - 1 = (gpt g 2).val from (by show 4 * g.val + 3 - 1 = 4 * g.val + 2; omega)) _ (gpt g 2).isLt i d, s2] at s3
  rw [e3, s3]
  rfl

end

end Cert.KernelIdeal.HandV

end
-- ==== Proof.KI.AttnGroup.lean ====
import proofs.«418154_j20864951124059_3_alg».proof.Proof.KI.Attn
import proofs.«418154_j20864951124059_3_alg».proof.Proof.KI.AttnStep
import proofs.«418154_j20864951124059_3_alg».proof.Proof.Softmax
import proofs.«418154_j20864951124059_3_alg».proof.Proof.Spec
import proofs.«418154_j20864951124059_3_alg».proof.Proof.KI.AttnBlocks
import proofs.«418154_j20864951124059_3_alg».proof.Proof.KI.AttnRow

-- the four updates of one (batch entry, head) compose to the whole-row attention of its rows

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open scoped BigOperators

abbrev gB (g : Fin 32) : Fin 2 := ⟨g.val / 16, by have := g.isLt; omega⟩

abbrev gH (g : Fin 32) : Fin 16 := ⟨g.val % 16, by omega⟩

theorem gpt_val (g : Fin 32) (j : Fin 4) : (gpt g j).val = 4 * g.val + j.val := rfl

theorem ptB_gpt (g : Fin 32) (j : Fin 4) : ptB (gpt g j) = gB g :=
  Fin.ext (by show (4 * g.val + j.val) / 64 = g.val / 16; have := j.isLt; omega)

theorem ptH_gpt (g : Fin 32) (j : Fin 4) : ptH (gpt g j) = gH g :=
  Fin.ext (by show (4 * g.val + j.val) / 4 % 16 = g.val % 16; have := j.isLt; omega)

theorem ptK_gpt (g : Fin 32) (j : Fin 4) : ptK (gpt g j) = j :=
  Fin.ext (by show (4 * g.val + j.val) % 4 = j.val; have := j.isLt; omega)

def qRow (Q : S4096x2048.Idx → EReal) (b : Fin 2) (h : Fin 16) (i : Fin 2048) : Fin 128 → EReal :=
  fun d' => Q (ix2 (rowOf b i) (Cert.Spec.hd h d'))

def kvHead (Kc : S2x16x4096x128.Idx → EReal) (b : Fin 2) (h : Fin 16) : Fin 4096 → Fin 128 → EReal :=
  fun t d' => Kc (ix4 b h t d')

def sRow (Q : S4096x2048.Idx → EReal) (Kc : S2x16x4096x128.Idx → EReal) (b : Fin 2) (h : Fin 16) (i : Fin 2048) : Fin 4096 → EReal :=
  Cert.Spec.score (qRow Q b h i) (kvHead Kc b h)

def vCol (Vc : S2x16x4096x128.Idx → EReal) (b : Fin 2) (h : Fin 16) (d : Fin 128) : Fin 4096 → EReal :=
  fun t => kvHead Vc b h t d

section
variable (V : (c : Dev nD) → (b : Ref sig .tc) → Buf (Elt Ideal) ((c : Thread nD τ).loc b))

abbrev qArr (c : Dev nD) : S4096x2048.Idx → EReal := V c (Pipeline.arrRef spec3 0)
abbrev kArr (c : Dev nD) : S2x16x4096x128.Idx → EReal := V c (Pipeline.arrRef spec3 1)
abbrev vArr (c : Dev nD) : S2x16x4096x128.Idx → EReal := V c (Pipeline.arrRef spec3 2)

theorem rowS_chunk (c : Dev nD) (g : Fin 32) (j : Fin 4) (i : Fin 2048) :
    rowS V c (gpt g j) i = Cert.Softmax.chunk (sRow (qArr V c) (kArr V c) (gB g) (gH g) i) j := by
  funext u
  show attnS (iblkR3 V c 0 (gpt g j)) (iblkR3 V c 1 (gpt g j)) i u
      = (∑ d' : Fin 128, qArr V c (ix2 (rowOf (gB g) i) (Cert.Spec.hd (gH g) d'))
          * kArr V c (ix4 (gB g) (gH g) ⟨j.val * 1024 + u.val, by have := j.isLt; have := u.isLt; omega⟩ d')) * Cert.Spec.scale
  unfold attnS
  refine congrArg (· * Cert.Spec.scale) (Finset.sum_congr rfl fun d' _ => ?_)
  refine congrArg₂ (· * ·) ((qblk_at V c (gpt g j) i d').trans ?_) ((kblk_at V c (gpt g j) 0 0 u d').trans ?_)
  · rw [ptB_gpt, ptH_gpt]
  · rw [ptB_gpt, ptH_gpt, ptK_gpt]

theorem colV_chunk (c : Dev nD) (g : Fin 32) (j : Fin 4) (d : Fin 128) :
    colV V c (gpt g j) d = Cert.Softmax.chunk (vCol (vArr V c) (gB g) (gH g) d) j := by
  funext u
  show attnV (iblkR3 V c 2 (gpt g j)) d u
      = vArr V c (ix4 (gB g) (gH g) ⟨j.val * 1024 + u.val, by have := j.isLt; have := u.isLt; omega⟩ d)
  refine (vblk_at V c (gpt g j) 0 0 u d).trans ?_
  rw [ptB_gpt, ptH_gpt, ptK_gpt]

theorem groupSt_eq_run4 (c : Dev nD) (g : Fin 32) (i : Fin 2048) (d : Fin 128) :
    groupSt V c g i d = Cert.Softmax.run4 (sRow (qArr V c) (kArr V c) (gB g) (gH g) i) (vCol (vArr V c) (gB g) (gH g) d) := by
  unfold groupSt Cert.Softmax.run4
  rw [rowS_chunk V c g 0, rowS_chunk V c g 1, rowS_chunk V c g 2, rowS_chunk V c g 3,
    colV_chunk V c g 0, colV_chunk V c g 1, colV_chunk V c g 2, colV_chunk V c g 3]

end

theorem scale_real : ∃ r : ℝ, Cert.Spec.scale = (r : EReal) := by
  unfold Cert.Spec.scale Ideal.ofBits Ideal.ieee
  simp only []
  rw [if_neg (by decide), if_neg (by decide)]
  exact ⟨_, rfl⟩

theorem sum_real {ι : Type} (s : Finset ι) (f : ι → EReal) (hf : ∀ a, ∃ r : ℝ, f a = (r : EReal)) :
    ∃ r : ℝ, ∑ a ∈ s, f a = (r : EReal) := by
  choose fr hfr using hf
  exact ⟨∑ a ∈ s, fr a, by rw [Cert.Softmax.coe_sum]; exact Finset.sum_congr rfl fun a _ => hfr a⟩

theorem sRow_real (Q : S4096x2048.Idx → EReal) (Kc : S2x16x4096x128.Idx → EReal)
    (hQ : ∀ j, ∃ r : ℝ, Q j = (r : EReal)) (hK : ∀ j, ∃ r : ℝ, Kc j = (r : EReal))
    (b : Fin 2) (h : Fin 16) (i : Fin 2048) (t : Fin 4096) : ∃ r : ℝ, sRow Q Kc b h i t = (r : EReal) := by
  obtain ⟨sc, hsc⟩ := scale_real
  obtain ⟨r, hr⟩ := sum_real Finset.univ (fun d' : Fin 128 => qRow Q b h i d' * kvHead Kc b h t d') (fun d' => by
    obtain ⟨x, hx⟩ := hQ (ix2 (rowOf b i) (Cert.Spec.hd h d'))
    obtain ⟨y, hy⟩ := hK (ix4 b h t d')
    exact ⟨x * y, by show Q _ * Kc _ = _; rw [hx, hy, EReal.coe_mul]⟩)
  exact ⟨r * sc, by show (∑ d' : Fin 128, qRow Q b h i d' * kvHead Kc b h t d') * Cert.Spec.scale = _; rw [hr, hsc, EReal.coe_mul]⟩

section
variable (V : (c : Dev nD) → (b : Ref sig .tc) → Buf (Elt Ideal) ((c : Thread nD τ).loc b))

theorem group_attend (c : Dev nD) (g : Fin 32) (i : Fin 2048) (d : Fin 128)
    (hQ : ∀ j, ∃ r : ℝ, qArr V c j = (r : EReal)) (hK : ∀ j, ∃ r : ℝ, kArr V c j = (r : EReal))
    (hV : ∀ j, ∃ r : ℝ, vArr V c j = (r : EReal)) :
    Ideal.div (groupSt V c g i d).2.2 (groupSt V c g i d).2.1
      = Cert.Spec.attend (sRow (qArr V c) (kArr V c) (gB g) (gH g) i) (vCol (vArr V c) (gB g) (gH g) d) := by
  rw [groupSt_eq_run4]
  exact Cert.Softmax.online_eq _ _ (fun t => sRow_real _ _ hQ hK _ _ _ t) (fun t => hV _)

end

end Cert.KernelIdeal.HandV

end
-- ==== Proof.AttnSpec.lean ====
import proofs.«418154_j20864951124059_3_alg».proof.Proof.Spec

-- attention on rows flattened over (batch entry, position): a row meets the caches of its own batch entry, head by head

noncomputable section

namespace Cert.Spec

open Idealize.ShloMosaic Idealize.ShloMosaic.ValueIdx

abbrev Sr : Shape := ⟨2, ![4096, 2048]⟩

def flatRow (b : Fin 2) (i : Fin 2048) : Fin 4096 := ⟨b.val * 2048 + i.val, by omega⟩

def attnRows (Q : Sr.Idx → EReal) (Kc Vc : Sf.Idx → EReal) (r : Fin 4096) (e : Fin 2048) : EReal :=
  attend
    (score (fun d' => Q (ix2 r (hd ⟨e.val / 128, by omega⟩ d')))
      (fun t d' => Kc (ix4 (⟨r.val / 2048, by omega⟩ : Fin 2) (⟨e.val / 128, by omega⟩ : Fin 16) t d')))
    (fun t => Vc (ix4 (⟨r.val / 2048, by omega⟩ : Fin 2) (⟨e.val / 128, by omega⟩ : Fin 16) t (⟨e.val % 128, by omega⟩ : Fin 128)))

def attnArr (Q : Sr.Idx → EReal) (Kc Vc : Sf.Idx → EReal) : Sr.Idx → EReal :=
  fun j => attnRows Q Kc Vc (j 0) (j 1)

end Cert.Spec

end
-- ==== Proof.KI.AttnVal.lean ====
import proofs.«418154_j20864951124059_3_alg».proof.Proof.KI.AttnBlocks
import proofs.«418154_j20864951124059_3_alg».proof.Proof.KI.AttnRow
import proofs.«418154_j20864951124059_3_alg».proof.Proof.KI.AttnGroup
import proofs.«418154_j20864951124059_3_alg».proof.Proof.AttnSpec

-- the attention region's output array is the specification's attention of its three input arrays

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

theorem attnRows_at (Q : S4096x2048.Idx → EReal) (Kc Vc : S2x16x4096x128.Idx → EReal)
    (b : Fin 2) (h : Fin 16) (i : Fin 2048) (d : Fin 128) :
    Cert.Spec.attnRows Q Kc Vc (rowOf b i) (Cert.Spec.hd h d) = Cert.Spec.attend (sRow Q Kc b h i) (vCol Vc b h d) := by
  have hb := b.isLt; have hh := h.isLt; have hi := i.isLt; have hd := d.isLt
  have e1 : (⟨(rowOf b i).val / 2048, by omega⟩ : Fin 2) = b :=
    Fin.ext (by show (b.val * 2048 + i.val) / 2048 = b.val; omega)
  have e2 : (⟨(Cert.Spec.hd h d).val / 128, by omega⟩ : Fin 16) = h :=
    Fin.ext (by show (h.val * 128 + d.val) / 128 = h.val; omega)
  have e3 : (⟨(Cert.Spec.hd h d).val % 128, by omega⟩ : Fin 128) = d :=
    Fin.ext (by show (h.val * 128 + d.val) % 128 = d.val; omega)
  unfold Cert.Spec.attnRows
  rw [e1, e2, e3]
  rfl

section
variable (V : (c : Dev nD) → (b : Ref sig .tc) → Buf (Elt Ideal) ((c : Thread nD τ).loc b))

theorem flushed_eq (c : Dev nD)
    (hQ : ∀ j, ∃ r : ℝ, (V c (Pipeline.arrRef spec3 0) : S4096x2048.Idx → EReal) j = (r : EReal))
    (hK : ∀ j, ∃ r : ℝ, (V c (Pipeline.arrRef spec3 1) : S2x16x4096x128.Idx → EReal) j = (r : EReal))
    (hV : ∀ j, ∃ r : ℝ, (V c (Pipeline.arrRef spec3 2) : S2x16x4096x128.Idx → EReal) j = (r : EReal))
    (t : Fin cfg3.N) (hfl : (cfg3.win 3).flush t = true) :
    (datR3 V c).flushed 3 t = ((cfg3.win 3).blk t).view.read (Elt Ideal)
      (Cert.Spec.attnArr (V c (Pipeline.arrRef spec3 0)) (V c (Pipeline.arrRef spec3 1)) (V c (Pipeline.arrRef spec3 2))) := by
  have h3 : t.val % 4 = 3 := (flush3_3 t).mp hfl
  have htl := pt_lt t
  obtain ⟨g, rfl⟩ : ∃ g : Fin 32, t = gpt g 3 :=
    ⟨⟨t.val / 4, by omega⟩, Fin.ext (by rw [gpt_val]; show t.val = 4 * (t.val / 4) + 3; omega)⟩
  show (cfg3.win 3).cut (grid3.coords (gpt g 3)) ((datR3 V c).after 3 (gpt g 3)) = _
  rw [afterR3_3 V c (gpt g 3)]
  funext y
  obtain ⟨i, d, rfl⟩ : ∃ (i : Fin 2048) (d : Fin 128), y = ix2 i d := ⟨y 0, y 1, eq_ix2 y⟩
  show (outsAtR3 V c (gpt g 3).val (gpt g 3).isLt).1 (ix2 i d)
    = Cert.Spec.attnArr _ _ _ (((cfg3.win 3).blk (gpt g 3)).view.emb (ix2 i d))
  rw [oblk_emb, group_out, group_attend V c g i d hQ hK hV, ptB_gpt, ptH_gpt]
  exact (attnRows_at _ _ _ (gB g) (gH g) i d).symm

theorem finalR3 (c : Dev nD)
    (hQ : ∀ j, ∃ r : ℝ, (V c (Pipeline.arrRef spec3 0) : S4096x2048.Idx → EReal) j = (r : EReal))
    (hK : ∀ j, ∃ r : ℝ, (V c (Pipeline.arrRef spec3 1) : S2x16x4096x128.Idx → EReal) j = (r : EReal))
    (hV : ∀ j, ∃ r : ℝ, (V c (Pipeline.arrRef spec3 2) : S2x16x4096x128.Idx → EReal) j = (r : EReal)) :
    (datR3 V c).arrAt 3 cfg3.N = Cert.Spec.attnArr (V c (Pipeline.arrRef spec3 0)) (V c (Pipeline.arrRef spec3 1)) (V c (Pipeline.arrRef spec3 2)) :=
  (datR3 V c).arrAt_eq_of_cover 3 _ (fun t hfl => flushed_eq V c hQ hK hV t hfl) tilesR3

end

end Cert.KernelIdeal.HandV

end
-- ==== Proof.KI.ChainOut.lean ====
import proofs.«418154_j20864951124059_3_alg».proof.Proof.KI.Run
import proofs.«418154_j20864951124059_3_alg».proof.Proof.KI.ChainQKV
import proofs.«418154_j20864951124059_3_alg».proof.Proof.KI.LinVal4
import proofs.«418154_j20864951124059_3_alg».proof.Proof.KI.HostVal
import proofs.«418154_j20864951124059_3_alg».proof.Proof.KI.AttnVal
import proofs.«418154_j20864951124059_3_alg».proof.Proof.AttnSpec
import proofs.«418154_j20864951124059_3_alg».proof.Proof.Softmax

-- the attention rows and the output projection, followed along the boundaries; with every argument real every score is real

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open scoped BigOperators

abbrev FinArgs (m : (ℓ : Loc nD τ sig) → Buf (Elt Ideal) ℓ) (c : Dev nD) : Prop :=
  (∀ i : S2x2048x2048.Idx, ∃ r : ℝ, (arg0 m c) i = (r : EReal))
    ∧ (∀ i : S2x16x2048x128.Idx, ∃ r : ℝ, (arg1 m c) i = (r : EReal))
    ∧ (∀ i : S2x16x2048x128.Idx, ∃ r : ℝ, (arg2 m c) i = (r : EReal))
    ∧ (∀ i : S2048x2048.Idx, ∃ r : ℝ, (arg3 m c) i = (r : EReal))
    ∧ (∀ i : S2048.Idx, ∃ r : ℝ, (arg4 m c) i = (r : EReal))
    ∧ (∀ i : S2048x2048.Idx, ∃ r : ℝ, (arg5 m c) i = (r : EReal))
    ∧ (∀ i : S2048.Idx, ∃ r : ℝ, (arg6 m c) i = (r : EReal))
    ∧ (∀ i : S2048x2048.Idx, ∃ r : ℝ, (arg7 m c) i = (r : EReal))
    ∧ (∀ i : S2048.Idx, ∃ r : ℝ, (arg8 m c) i = (r : EReal))
    ∧ (∀ i : S2048x2048.Idx, ∃ r : ℝ, (arg9 m c) i = (r : EReal))
    ∧ (∀ i : S2048.Idx, ∃ r : ℝ, (arg10 m c) i = (r : EReal))

section PersistOut
variable {F : FTy → Type} [FloatOps F] (m : (ℓ : Loc nD τ sig) → Buf (Elt F) ℓ) (c : Dev nD)

theorem U9_of (r : Ref sig .tc) (h : r ∉ hostOps4_W) : U9 m c (Proc.devRef .tc r) = U8 m c (Proc.devRef .tc r) :=
  StableHlo.after_of_writes_sub hostOps4 _ hostOps4_writes h
theorem U11_of (r : Ref sig .tc) (h : r ∉ hostOps5_W) : U11 m c (Proc.devRef .tc r) = U10 m c (Proc.devRef .tc r) :=
  StableHlo.after_of_writes_sub hostOps5 _ hostOps5_writes h

theorem U8_in (w : Fin cfg3.W) (hin : (cfg3.win w).isOut = false) :
    U8 m c (Proc.devRef .tc (Pipeline.arrRef spec3 w)) = U7 m c (Proc.devRef .tc (Pipeline.arrRef spec3 w)) := by
  rw [U8_arr, Pipeline.Dat.arrAt_in _ w hin, A_eqR3]

theorem U11_v16 : U11 m c main_v16 = E7 m c main_v16 :=
  (((U11_of m c main_v16 (by decide)).trans (U10_of_ne m c main_v16 (by decide))).trans (U9_of m c main_v16 (by decide))).trans
    (U8_in m c 1 rfl)
theorem U11_v17 : U11 m c main_v17 = E7 m c main_v17 :=
  (((U11_of m c main_v17 (by decide)).trans (U10_of_ne m c main_v17 (by decide))).trans (U9_of m c main_v17 (by decide))).trans
    (U8_in m c 2 rfl)

theorem E9_v18 : E9 m c main_v18 = E8 m c main_v18 := U9_of m c main_v18 (by decide)

theorem E9_v5 : E9 m c main_v5 = E1 m c main_v5 :=
  (((((((U9_of m c main_v5 (by decide)).trans (U8_of_ne m c main_v5 (by decide))).trans (U7_of m c main_v5 (by decide))).trans
    (U6_of_ne m c main_v5 (by decide))).trans (U5_of m c main_v5 (by decide))).trans (U4_of_ne m c main_v5 (by decide))).trans
    (U3_of m c main_v5 (by decide))).trans (U2_of_ne m c main_v5 (by decide))

theorem U8_arg10 : U8 m c (Proc.devRef .tc main_arg10) = U0 m c (Proc.devRef .tc main_arg10) :=
  ((U8_of_ne m c main_arg10 (by decide)).trans (U7_of m c main_arg10 (by decide))).trans
    (U6_arg m c main_arg10 (by decide) (by decide) (by decide) (by decide) (by decide) (by decide))

end PersistOut

theorem proj_real (x : Cert.Spec.Sx.Idx → EReal) (W : Cert.Spec.Sw.Idx → EReal) (b : Cert.Spec.Sb.Idx → EReal)
    (hx : ∀ i, ∃ r : ℝ, x i = (r : EReal)) (hW : ∀ i, ∃ r : ℝ, W i = (r : EReal)) (hb : ∀ i, ∃ r : ℝ, b i = (r : EReal))
    (bb : Fin 2) (s e : Fin 2048) : ∃ r : ℝ, Cert.Spec.proj x W b bb s e = (r : EReal) := by
  choose fx hfx using hx
  choose fW hfW using hW
  obtain ⟨rb, hrb⟩ := hb (ix1 e)
  refine ⟨(∑ k : Fin 2048, fx (ix3 bb s k) * fW (ix2 e k)) + rb, ?_⟩
  unfold Cert.Spec.proj
  rw [hrb, EReal.coe_add, Cert.Softmax.coe_sum]
  exact congrArg (· + (rb : EReal)) (Finset.sum_congr rfl fun k _ => by rw [hfx, hfW, EReal.coe_mul])

theorem cache_real (past : Cert.Spec.Sp.Idx → EReal) (x : Cert.Spec.Sx.Idx → EReal) (W : Cert.Spec.Sw.Idx → EReal) (b : Cert.Spec.Sb.Idx → EReal)
    (hp : ∀ i, ∃ r : ℝ, past i = (r : EReal))
    (hx : ∀ i, ∃ r : ℝ, x i = (r : EReal)) (hW : ∀ i, ∃ r : ℝ, W i = (r : EReal)) (hb : ∀ i, ∃ r : ℝ, b i = (r : EReal))
    (bb : Fin 2) (h : Fin 16) (t : Fin 4096) (d : Fin 128) : ∃ r : ℝ, Cert.Spec.cache past x W b bb h t d = (r : EReal) := by
  unfold Cert.Spec.cache
  by_cases ht : t.val < 2048
  · rw [dif_pos ht]; exact hp _
  · rw [dif_neg ht]; exact proj_real x W b hx hW hb _ _ _

theorem attnRows_flat (Q : Cert.Spec.Sr.Idx → EReal) (Kc Vc : Cert.Spec.Sf.Idx → EReal)
    (qf : Fin 2 → Fin 2048 → Fin 2048 → EReal) (kf vf : Fin 2 → Fin 16 → Fin 4096 → Fin 128 → EReal)
    (hQ : ∀ b i e, Q (ix2 (Cert.Spec.flatRow b i) e) = qf b i e)
    (hK : ∀ b h t d, Kc (ix4 b h t d) = kf b h t d) (hV : ∀ b h t d, Vc (ix4 b h t d) = vf b h t d)
    (b : Fin 2) (i j : Fin 2048) :
    Cert.Spec.attnRows Q Kc Vc (Cert.Spec.flatRow b i) j
      = Cert.Spec.attend
          (Cert.Spec.score (fun d => qf b i (Cert.Spec.hd ⟨j.val / 128, by omega⟩ d)) (fun t d => kf b ⟨j.val / 128, by omega⟩ t d))
          (fun t => vf b ⟨j.val / 128, by omega⟩ t ⟨j.val % 128, by omega⟩) := by
  unfold Cert.Spec.attnRows
  have hb : (⟨(Cert.Spec.flatRow b i).val / 2048, by have := (Cert.Spec.flatRow b i).isLt; omega⟩ : Fin 2) = b :=
    Fin.ext (by show (b.val * 2048 + i.val) / 2048 = b.val; omega)
  simp only [hb, hQ, hK, hV]

section
variable (m : (ℓ : Loc nD τ sig) → Buf (Elt Ideal) ℓ) (c : Dev nD)

theorem res_k : (U11 m c main_v16 : S2x16x4096x128.Idx → EReal) = Cert.Spec.cacheArr (arg1 m c) (arg0 m c) (arg5 m c) (arg6 m c) := by
  rw [show (U11 m c main_v16 : S2x16x4096x128.Idx → EReal) = E7 m c main_v16 from U11_v16 m c]
  funext j
  obtain ⟨b, h, t, d, rfl⟩ : ∃ (b : Fin 2) (h : Fin 16) (t : Fin 4096) (d : Fin 128), j = ix4 b h t d := ⟨j 0, j 1, j 2, j 3, eq_ix4 j⟩
  rw [kcache_at]
  rfl

theorem res_v : (U11 m c main_v17 : S2x16x4096x128.Idx → EReal) = Cert.Spec.cacheArr (arg2 m c) (arg0 m c) (arg7 m c) (arg8 m c) := by
  rw [show (U11 m c main_v17 : S2x16x4096x128.Idx → EReal) = E7 m c main_v17 from U11_v17 m c]
  funext j
  obtain ⟨b, h, t, d, rfl⟩ : ∃ (b : Fin 2) (h : Fin 16) (t : Fin 4096) (d : Fin 128), j = ix4 b h t d := ⟨j 0, j 1, j 2, j 3, eq_ix4 j⟩
  rw [vcache_at]
  rfl

theorem qrows_flat (b : Fin 2) (i e : Fin 2048) :
    (E7 m c main_v7 : S4096x2048.Idx → EReal) (ix2 (Cert.Spec.flatRow b i) e)
      = Cert.Spec.proj (arg0 m c) (arg3 m c) (arg4 m c) b i e := by
  rw [show (E7 m c main_v7 : S4096x2048.Idx → EReal) = E2 m c main_v7 from E7_v7 m c, qrows_at]
  have hb : (⟨(Cert.Spec.flatRow b i).val / 2048, by have := (Cert.Spec.flatRow b i).isLt; omega⟩ : Fin 2) = b :=
    Fin.ext (by show (b.val * 2048 + i.val) / 2048 = b.val; omega)
  have hi : (⟨(Cert.Spec.flatRow b i).val % 2048, by omega⟩ : Fin 2048) = i :=
    Fin.ext (by show (b.val * 2048 + i.val) % 2048 = i.val; omega)
  rw [hb, hi]

theorem real_v7 (hfin : FinArgs m c) (j : S4096x2048.Idx) : ∃ r : ℝ, (E7 m c main_v7 : S4096x2048.Idx → EReal) j = (r : EReal) := by
  obtain ⟨h0, h1, h2, h3, h4, h5, h6, h7, h8, h9, h10⟩ := hfin
  obtain ⟨r, e, rfl⟩ : ∃ (r : Fin 4096) (e : Fin 2048), j = ix2 r e := ⟨j 0, j 1, eq_ix2 j⟩
  rw [show (E7 m c main_v7 : S4096x2048.Idx → EReal) = E2 m c main_v7 from E7_v7 m c, qrows_at]
  exact proj_real _ _ _ h0 h3 h4 _ _ _
theorem real_v16 (hfin : FinArgs m c) (j : S2x16x4096x128.Idx) : ∃ r : ℝ, (E7 m c main_v16 : S2x16x4096x128.Idx → EReal) j = (r : EReal) := by
  obtain ⟨h0, h1, h2, h3, h4, h5, h6, h7, h8, h9, h10⟩ := hfin
  obtain ⟨b, h, t, d, rfl⟩ : ∃ (b : Fin 2) (h : Fin 16) (t : Fin 4096) (d : Fin 128), j = ix4 b h t d := ⟨j 0, j 1, j 2, j 3, eq_ix4 j⟩
  rw [kcache_at]
  exact cache_real _ _ _ _ h1 h0 h5 h6 _ _ _ _
theorem real_v17 (hfin : FinArgs m c) (j : S2x16x4096x128.Idx) : ∃ r : ℝ, (E7 m c main_v17 : S2x16x4096x128.Idx → EReal) j = (r : EReal) := by
  obtain ⟨h0, h1, h2, h3, h4, h5, h6, h7, h8, h9, h10⟩ := hfin
  obtain ⟨b, h, t, d, rfl⟩ : ∃ (b : Fin 2) (h : Fin 16) (t : Fin 4096) (d : Fin 128), j = ix4 b h t d := ⟨j 0, j 1, j 2, j 3, eq_ix4 j⟩
  rw [vcache_at]
  exact cache_real _ _ _ _ h2 h0 h7 h8 _ _ _ _

theorem attn_arr (hfin : FinArgs m c) :
    (E8 m c main_v18 : S4096x2048.Idx → EReal)
      = Cert.Spec.attnArr (E7 m c main_v7 : S4096x2048.Idx → EReal) (E7 m c main_v16 : S2x16x4096x128.Idx → EReal) (E7 m c main_v17 : S2x16x4096x128.Idx → EReal) :=
  (U8_arr m c 3).trans (finalR3 (E7 m) c (real_v7 m c hfin) (real_v16 m c hfin) (real_v17 m c hfin))

theorem attn_at (hfin : FinArgs m c) (b : Fin 2) (i j : Fin 2048) :
    (E8 m c main_v18 : S4096x2048.Idx → EReal) (ix2 (Cert.Spec.flatRow b i) j)
      = Cert.Spec.attnFlat (arg0 m c) (arg1 m c) (arg2 m c)
          (arg3 m c) (arg4 m c) (arg5 m c) (arg6 m c)
          (arg7 m c) (arg8 m c) b i j := by
  rw [attn_arr m c hfin]
  show Cert.Spec.attnRows _ _ _ (Cert.Spec.flatRow b i) j = _
  rw [attnRows_flat _ _ _ _ _ _ (qrows_flat m c) (kcache_at m c) (vcache_at m c)]
  rfl

theorem E9_v19_at (u : Fin 1) (e : Fin 2048) :
    (E9 m c main_v19 : S1x2048.Idx → EReal) (ix2 u e) = (arg10 m c) (ix1 e) := by
  have e' : (E9 m c main_v19 : S1x2048.Idx → EReal)
      = shapeCast S1x2048 (arg10 m c) shapeCasts_S2048_S1x2048 := by
    show StableHlo.after hostOps4 (U8 m c) (Proc.devRef .tc main_v19) = _
    after_results
    rw [U8_arg10 m c]
    rfl
  rw [e']
  exact shapeCast_a_1a_apply _ _ u e

theorem outrows_at (hfin : FinArgs m c) (b : Fin 2) (s e : Fin 2048) :
    (E10 m c main_v20 : S4096x2048.Idx → EReal) (ix2 (Cert.Spec.flatRow b s) e)
      = Cert.Spec.out (arg0 m c) (arg1 m c) (arg2 m c)
          (arg3 m c) (arg4 m c) (arg5 m c) (arg6 m c)
          (arg7 m c) (arg8 m c) (arg9 m c) (arg10 m c) b s e := by
  have hA : (E10 m c main_v20 : S4096x2048.Idx → EReal)
      = linG (E9 m c main_v18 : S4096x2048.Idx → EReal) (E9 m c main_v5 : S2048x2048.Idx → EReal) (E9 m c main_v19 : S1x2048.Idx → EReal) :=
    (U10_arr m c 3).trans (finalR4 (E9 m) c)
  rw [hA, linG_ix2]
  unfold Cert.Spec.out
  rw [E9_v18, E9_v5, E1_v5_eq, E9_v19_at]
  exact congrArg (· + _) (Finset.sum_congr rfl fun k _ => by rw [attn_at m c hfin])

theorem U11_v21_at (b : Fin 2) (s e : Fin 2048) :
    (U11 m c main_v21 : S2x2048x2048.Idx → EReal) (ix3 b s e) = (E10 m c main_v20 : S4096x2048.Idx → EReal) (ix2 (Cert.Spec.flatRow b s) e) := by
  have e' : (U11 m c main_v21 : S2x2048x2048.Idx → EReal)
      = shapeCast S2x2048x2048 (E10 m c main_v20 : S4096x2048.Idx → EReal) shapeCasts_S4096x2048_S2x2048x2048 := by
    show StableHlo.after hostOps5 (U10 m c) (Proc.devRef .tc main_v21) = _
    after_results
    rfl
  rw [e']
  refine shapeCast_apply (s := S4096x2048) (t := S2x2048x2048) _ _ _ _ ?_
  rw [Shape.rowMajor_val_two, Shape.rowMajor_val_three]
  show (b.val * 2048 + s.val) * 2048 + e.val = (b.val * 2048 + s.val) * 2048 + e.val
  rfl

theorem res_out (hfin : FinArgs m c) : (U11 m c main_v21 : S2x2048x2048.Idx → EReal)
      = Cert.Spec.outArr (arg0 m c) (arg1 m c) (arg2 m c)
          (arg3 m c) (arg4 m c) (arg5 m c) (arg6 m c)
          (arg7 m c) (arg8 m c) (arg9 m c) (arg10 m c) := by
  funext j
  obtain ⟨b, s, e, rfl⟩ : ∃ (b : Fin 2) (s e : Fin 2048), j = ix3 b s e := ⟨j 0, j 1, j 2, eq_ix3 j⟩
  rw [U11_v21_at, outrows_at m c hfin]
  rfl

end

end Cert.KernelIdeal.HandV

end
-- ==== Proof.Ref.lean ====
import proofs.«418154_j20864951124059_3_alg».proof.Proof.Gen.ReferenceIdeal.Read
import proofs.«418154_j20864951124059_3_alg».proof.Proof.Spec
import Idealize.ShloMosaic.Lib.ValueIdx
import Idealize.ShloMosaic.Lib.Pipeline.Value
import Idealize.ShloMosaic.PureOps.Ideal.Laws
import Idealize.ShloMosaic.PureOps.Reduce

-- the reference's operations, read at an index one after the other, are the specification's functions

noncomputable section

namespace Cert.RefSpec

open Cert.ReferenceIdeal Cert.ReferenceIdeal.Gen Cert.ReferenceIdeal.Read
open Idealize.ShloMosaic Idealize.ShloMosaic.TcCoe Idealize.ShloMosaic.StableHlo Idealize.ShloMosaic.ValueIdx
open Cert.Spec (proj cache cacheArr hd score scores rowMax weight attend attn attnFlat out outArr scale)

abbrev Ax := (⟨S2x2048x2048, .f32⟩ : BufTy).Contents (Elt Ideal)
abbrev Ap := (⟨S2x16x2048x128, .f32⟩ : BufTy).Contents (Elt Ideal)
abbrev Aw := (⟨S2048x2048, .f32⟩ : BufTy).Contents (Elt Ideal)
abbrev Ab := (⟨S2048, .f32⟩ : BufTy).Contents (Elt Ideal)

theorem v3_at (x0 : Ax) (W : Aw) (b : Ab) (bb : Fin 2) (s e : Fin 2048) :
    val_main_v3 (F := Ideal) x0 W b (ix3 bb s e) = proj x0 W b bb s e := by
  rw [val_main_v3_apply, val_main_v0_apply, val_main_v2_apply, val_main_v1_apply]
  simp only [Ideal.addf_def]
  unfold proj
  have hb : idx_main_v1 (idx_main_v2 (ix3 bb s e)) = ix1 e := by
    funext a; match a with | ⟨0, _⟩ => rfl
  have hl : ∀ k : Fin 2048, lidx_main_v0 (ix3 bb s e) k = ix3 bb s k := fun k => by
    funext a; match a with | ⟨0, _⟩ => rfl | ⟨1, _⟩ => rfl | ⟨2, _⟩ => rfl
  have hr : ∀ k : Fin 2048, ridx_main_v0 (ix3 bb s e) k = ix2 e k := fun k => by
    funext a; match a with | ⟨0, _⟩ => rfl | ⟨1, _⟩ => rfl
  rw [hb]
  simp only [hl, hr]

theorem v5_at (x0 : Ax) (W : Aw) (b : Ab) (bb : Fin 2) (h : Fin 16) (s : Fin 2048) (d : Fin 128) :
    val_main_v5 (F := Ideal) x0 W b (ix4 bb h s d) = proj x0 W b bb s (hd h d) := by
  rw [val_main_v5_apply, val_main_v4_apply]
  have hi : idx_main_v4 (idx_main_v5 (ix4 bb h s d)) = ix3 bb s (hd h d) := by
    have h0 := bb.isLt; have h1 := h.isLt; have h2 := s.isLt; have h3 := d.isLt
    funext a
    match a with
    | ⟨0, _⟩ => exact Fin.ext (by show (((bb.val * 2048 + s.val) * 16 + h.val) * 128 + d.val) / 4194304 = bb.val; omega)
    | ⟨1, _⟩ => exact Fin.ext (by show (((bb.val * 2048 + s.val) * 16 + h.val) * 128 + d.val) / 2048 % 2048 = s.val; omega)
    | ⟨2, _⟩ => exact Fin.ext (by show (((bb.val * 2048 + s.val) * 16 + h.val) * 128 + d.val) % 2048 = h.val * 128 + d.val; omega)
  rw [hi, v3_at]

theorem v11_eq (x0 : Ax) (W : Aw) (b : Ab) : val_main_v11 (F := Ideal) x0 W b = val_main_v5 (F := Ideal) x0 W b := rfl
theorem v18_eq (x0 : Ax) (W : Aw) (b : Ab) : val_main_v18 (F := Ideal) x0 W b = val_main_v5 (F := Ideal) x0 W b := rfl

theorem concat_at (past : Ap) (x0 : Ax) (W : Aw) (b : Ab) (j : S2x16x4096x128.Idx) :
    concatenate S2x16x4096x128 2 [⟨S2x16x2048x128, past⟩, ⟨S2x16x2048x128, val_main_v5 (F := Ideal) x0 W b⟩]
        concatenates_S2x16x2048x128_S2x16x2048x128_S2x16x4096x128_d2 j
      = cache past x0 W b (j 0) (j 1) (j 2) (j 3) := by
  unfold cache
  by_cases ht : (j 2).val < 2048
  · rw [dif_pos ht]
    refine concatenate_pair_apply_left (s₁ := S2x16x2048x128) (s₂ := S2x16x2048x128) 2 past (val_main_v5 (F := Ideal) x0 W b) _ j rfl
      (ix4 (n2 := 2048) (j 0) (j 1) ⟨(j 2).val, ht⟩ (j 3)) ?_
    intro c; match c with | ⟨0, _⟩ => rfl | ⟨1, _⟩ => rfl | ⟨2, _⟩ => rfl | ⟨3, _⟩ => rfl
  · rw [dif_neg ht]
    have hlt : (j 2).val < 4096 := (j 2).isLt
    rw [← v5_at x0 W b (j 0) (j 1) ⟨(j 2).val - 2048, by omega⟩ (j 3)]
    refine concatenate_pair_apply_right (s₁ := S2x16x2048x128) (s₂ := S2x16x2048x128) 2 past (val_main_v5 (F := Ideal) x0 W b) _ j rfl rfl
      (ix4 (n2 := 2048) (j 0) (j 1) ⟨(j 2).val - 2048, by omega⟩ (j 3)) ?_ ?_
    · intro c hc
      match c with
      | ⟨0, _⟩ => rfl
      | ⟨1, _⟩ => rfl
      | ⟨2, _⟩ => exact absurd rfl hc
      | ⟨3, _⟩ => rfl
    · show ((j 2).val - 2048) + 2048 = (j 2).val
      omega

theorem v12_at (x0 : Ax) (x1 : Ap) (x5 : Aw) (x6 : Ab) (j : S2x16x4096x128.Idx) :
    val_main_v12 (F := Ideal) x0 x1 x5 x6 j = cache x1 x0 x5 x6 (j 0) (j 1) (j 2) (j 3) := by
  unfold val_main_v12; rw [v11_eq]; exact concat_at x1 x0 x5 x6 j

theorem v19_at (x0 : Ax) (x2 : Ap) (x7 : Aw) (x8 : Ab) (j : S2x16x4096x128.Idx) :
    val_main_v19 (F := Ideal) x0 x2 x7 x8 j = cache x2 x0 x7 x8 (j 0) (j 1) (j 2) (j 3) := by
  unfold val_main_v19; rw [v18_eq]; exact concat_at x2 x0 x7 x8 j

theorem ref_v12 (x0 : Ax) (x1 : Ap)
    (x5 : Aw) (x6 : Ab) :
    val_main_v12 (F := Ideal) x0 x1 x5 x6 = Cert.Spec.cacheArr x1 x0 x5 x6 :=
  funext fun j => v12_at x0 x1 x5 x6 j

theorem ref_v19 (x0 : Ax) (x2 : Ap)
    (x7 : Aw) (x8 : Ab) :
    val_main_v19 (F := Ideal) x0 x2 x7 x8 = Cert.Spec.cacheArr x2 x0 x7 x8 :=
  funext fun j => v19_at x0 x2 x7 x8 j

section Scores
variable (x0 : Ax) (x1 : Ap) (x3 : Aw) (x4 : Ab) (x5 : Aw) (x6 : Ab)

theorem v22_at (bb : Fin 2) (h : Fin 16) (i : Fin 2048) (t : Fin 4096) :
    val_main_v22 (F := Ideal) x0 x1 x3 x4 x5 x6 (ix4 bb h i t) = scores x0 x1 x3 x4 x5 x6 bb h i t := by
  rw [val_main_v22_apply, val_main_v20_apply, val_main_v21_apply, val_main_cst_apply]
  simp only [Ideal.mulf_def, Ideal.ofBits_def]
  unfold scores score scale
  have hl : ∀ k : Fin 128, lidx_main_v20 (ix4 bb h i t) k = ix4 bb h i k := fun k => by
    funext a; match a with | ⟨0, _⟩ => rfl | ⟨1, _⟩ => rfl | ⟨2, _⟩ => rfl | ⟨3, _⟩ => rfl
  have hr : ∀ k : Fin 128, ridx_main_v20 (ix4 bb h i t) k = ix4 bb h t k := fun k => by
    funext a; match a with | ⟨0, _⟩ => rfl | ⟨1, _⟩ => rfl | ⟨2, _⟩ => rfl | ⟨3, _⟩ => rfl
  refine congrArg (· * _) (Finset.sum_congr rfl fun k _ => ?_)
  rw [hl, hr, v5_at, v12_at]

theorem max_negInf (y : EReal) : max (Ideal.ofBits .f32 0xFF800000#32) y = y := by
  simp [Ideal.ofBits, Ideal.ieee]

theorem negInf_eq_bot : Ideal.ofBits .f32 0xFF800000#32 = (⊥ : EReal) := by
  simp [Ideal.ofBits, Ideal.ieee]

theorem v25_at (bb : Fin 2) (h : Fin 16) (i : Fin 2048) :
    val_main_v25 (F := Ideal) x0 x1 x3 x4 x5 x6 (ix3 bb h i) = rowMax (scores x0 x1 x3 x4 x5 x6 bb h i) := by
  rw [val_main_v25_apply, val_main_v24_apply, val_main_cst_1_apply]
  simp only [Ideal.maximumf_def, Ideal.ofBits_def]
  rw [max_negInf]
  unfold val_main_v23
  have hR : S2x16x2048x4096.Reduces [3] S2x16x2048 := by decide
  rw [Host.reduce_eq_fold_single FloatOps.maximumf _ _ reducesTo_S2x16x2048x4096_S2x16x2048_d3 hR h_S_]
  rw [val_main_cst_0_apply, Ideal.ofBits_def, negInf_eq_bot]
  unfold rowMax
  have hf : ∀ t : Fin 4096, (val_main_v22 (F := Ideal) x0 x1 x3 x4 x5 x6 ∘ hR.lift (ix3 bb h i)) t
      = scores x0 x1 x3 x4 x5 x6 bb h i t := fun t => by
    show val_main_v22 (F := Ideal) x0 x1 x3 x4 x5 x6 (hR.lift (ix3 bb h i) t) = _
    rw [← v22_at x0 x1 x3 x4 x5 x6 bb h i t]
    refine congrArg _ (funext fun a => Fin.ext ?_)
    match a with | ⟨0, _⟩ => rfl | ⟨1, _⟩ => rfl | ⟨2, _⟩ => rfl | ⟨3, _⟩ => rfl
  exact congrArg (fun f => Finset.fold max (⊥ : EReal) f (Finset.univ : Finset (Fin 4096))) (funext hf)

theorem v29_at (bb : Fin 2) (h : Fin 16) (i : Fin 2048) (t : Fin 4096) :
    val_main_v29 (F := Ideal) x0 x1 x3 x4 x5 x6 (ix4 bb h i t)
      = Ideal.exp (scores x0 x1 x3 x4 x5 x6 bb h i t - rowMax (scores x0 x1 x3 x4 x5 x6 bb h i)) := by
  rw [val_main_v29_apply, val_main_v28_apply, val_main_v27_apply, val_main_v26_apply]
  simp only [Ideal.hostUnary_exp_def, Ideal.subf_def]
  have hi : idx_main_v26 (idx_main_v27 (ix4 bb h i t)) = ix3 bb h i := by
    funext a; match a with | ⟨0, _⟩ => rfl | ⟨1, _⟩ => rfl | ⟨2, _⟩ => rfl
  rw [hi, v22_at, v25_at]

theorem v33_at (bb : Fin 2) (h : Fin 16) (i : Fin 2048) (t : Fin 4096) :
    val_main_v33 (F := Ideal) x0 x1 x3 x4 x5 x6 (ix4 bb h i t) = weight (scores x0 x1 x3 x4 x5 x6 bb h i) t := by
  rw [val_main_v33_apply, val_main_v32_apply, val_main_v31_apply, val_main_v30_apply, val_main_cst_2_apply]
  simp only [Ideal.hostDivf_def, Ideal.ofBits_def, Ideal.ofBits_zero_f32, zero_add]
  unfold weight
  have hi : ∀ k : Fin 4096, idx_main_v30 (idx_main_v31 (idx_main_v32 (ix4 bb h i t))) k = ix4 bb h i k := fun k => by
    funext a; match a with | ⟨0, _⟩ => rfl | ⟨1, _⟩ => rfl | ⟨2, _⟩ => rfl | ⟨3, _⟩ => rfl
  rw [v29_at]
  refine congrArg _ (Finset.sum_congr rfl fun k _ => ?_)
  rw [hi, v29_at]

end Scores

section Out
variable (x0 : Ax) (x1 x2 : Ap) (x3 : Aw) (x4 : Ab) (x5 : Aw) (x6 : Ab) (x7 : Aw) (x8 : Ab)

theorem v34_at (bb : Fin 2) (h : Fin 16) (i : Fin 2048) (d : Fin 128) :
    val_main_v34 (F := Ideal) x0 x1 x2 x3 x4 x5 x6 x7 x8 (ix4 bb h i d) = attn x0 x1 x2 x3 x4 x5 x6 x7 x8 bb h i d := by
  rw [val_main_v34_apply]
  unfold attn attend
  have hl : ∀ k : Fin 4096, lidx_main_v34 (ix4 bb h i d) k = ix4 bb h i k := fun k => by
    funext a; match a with | ⟨0, _⟩ => rfl | ⟨1, _⟩ => rfl | ⟨2, _⟩ => rfl | ⟨3, _⟩ => rfl
  have hr : ∀ k : Fin 4096, ridx_main_v34 (ix4 bb h i d) k = ix4 bb h k d := fun k => by
    funext a; match a with | ⟨0, _⟩ => rfl | ⟨1, _⟩ => rfl | ⟨2, _⟩ => rfl | ⟨3, _⟩ => rfl
  refine Finset.sum_congr rfl fun k _ => ?_
  rw [hl, hr, v33_at, v19_at]

theorem v36_at (bb : Fin 2) (i j : Fin 2048) :
    val_main_v36 (F := Ideal) x0 x1 x2 x3 x4 x5 x6 x7 x8 (ix3 bb i j) = attnFlat x0 x1 x2 x3 x4 x5 x6 x7 x8 bb i j := by
  rw [val_main_v36_apply, val_main_v35_apply]
  unfold attnFlat
  have hi : idx_main_v35 (idx_main_v36 (ix3 bb i j))
      = ix4 bb (⟨j.val / 128, by omega⟩ : Fin 16) i (⟨j.val % 128, by omega⟩ : Fin 128) := by
    have h0 := bb.isLt; have h1 := i.isLt; have h2 := j.isLt
    funext a
    match a with
    | ⟨0, _⟩ => exact Fin.ext (by show ((bb.val * 2048 + i.val) * 2048 + j.val) / 4194304 = bb.val; omega)
    | ⟨1, _⟩ => exact Fin.ext (by show ((bb.val * 2048 + i.val) * 2048 + j.val) / 128 % 16 = j.val / 128; omega)
    | ⟨2, _⟩ => exact Fin.ext (by show ((bb.val * 2048 + i.val) * 2048 + j.val) / 2048 % 2048 = i.val; omega)
    | ⟨3, _⟩ => exact Fin.ext (by show ((bb.val * 2048 + i.val) * 2048 + j.val) % 128 = j.val % 128; omega)
  rw [hi, v34_at]

variable (x9 : Aw) (x10 : Ab)

theorem v40_at (bb : Fin 2) (i e : Fin 2048) :
    val_main_v40 (F := Ideal) x0 x1 x2 x3 x4 x5 x6 x7 x8 x9 x10 (ix3 bb i e) = out x0 x1 x2 x3 x4 x5 x6 x7 x8 x9 x10 bb i e := by
  rw [val_main_v40_apply, val_main_v37_apply, val_main_v39_apply, val_main_v38_apply]
  simp only [Ideal.addf_def]
  unfold out
  have hb : idx_main_v38 (idx_main_v39 (ix3 bb i e)) = ix1 e := by
    funext a; match a with | ⟨0, _⟩ => rfl
  have hl : ∀ k : Fin 2048, lidx_main_v37 (ix3 bb i e) k = ix3 bb i k := fun k => by
    funext a; match a with | ⟨0, _⟩ => rfl | ⟨1, _⟩ => rfl | ⟨2, _⟩ => rfl
  have hr : ∀ k : Fin 2048, ridx_main_v37 (ix3 bb i e) k = ix2 e k := fun k => by
    funext a; match a with | ⟨0, _⟩ => rfl | ⟨1, _⟩ => rfl
  rw [hb]
  refine congrArg (· + _) (Finset.sum_congr rfl fun k _ => ?_)
  rw [hl, hr, v36_at]

end Out

theorem ref_v40 (x0 : Ax) (x1 x2 : Ap)
    (x3 : Aw) (x4 : Ab)
    (x5 : Aw) (x6 : Ab)
    (x7 : Aw) (x8 : Ab)
    (x9 : Aw) (x10 : Ab) :
    val_main_v40 (F := Ideal) x0 x1 x2 x3 x4 x5 x6 x7 x8 x9 x10 = Cert.Spec.outArr x0 x1 x2 x3 x4 x5 x6 x7 x8 x9 x10 := by
  funext j
  obtain ⟨bb, i, e, rfl⟩ : ∃ bb i e, j = ix3 bb i e := ⟨_, _, _, eq_ix3 j⟩
  exact v40_at x0 x1 x2 x3 x4 x5 x6 x7 x8 x9 x10 bb i e

end Cert.RefSpec

end
-- ==== Proof.Finite.lean ====
import proofs.«418154_j20864951124059_3_alg».proof.Defs
import proofs.«418154_j20864951124059_3_alg».proof.Proof.Gen.Pre_finite_inputs
import Idealize.ShloMosaic.Lib.ReduceAll
import Idealize.ShloMosaic.Lib.ValueIdx
import Idealize.ShloMosaic.PureOps.Ideal.Laws

-- the precondition, conjunct by conjunct: every entry of every argument is a real number

noncomputable section

namespace Cert.Finite

open Idealize.ShloMosaic Idealize.SL.Sem
open Cert.Pre_finite_inputs

instance : Subsingleton S_.Idx := ⟨fun a b => funext fun d => d.elim0⟩

theorem inf_word : Ideal.ofBits .f32 0x7F800000#32 = (⊤ : EReal) := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_word] at h
  unfold Ideal.cmp at h
  induction x using EReal.rec with
  | bot => simp at h
  | coe r => exact ⟨r, rfl⟩
  | top => simp at h

theorem all_real {s : Shape} {axes : List (Fin s.rank)} (x : FVec Ideal s .f32)
    (bc : S_.BroadcastsInDim s (![] : Fin 0 → Fin s.rank)) (red : s.ReducesTo axes S_) (hu : 0 < S_.numel)
    (h : Host.reduce IntOp.andi (cmpf .olt (Host.absf x) (broadcastInDim s ![] bc (constant (F := Ideal) S_ .f32 0x7F800000#32)))
          (constantI S_ 1 1#1) red hu ValueIdx.ix0 = 1#1) :
    ∀ i, ∃ r : ℝ, x i = (r : EReal) := fun i =>
  real_of_abs_lt_inf (x i) (Host.reduce_andi_all _ _ red hu _ h i)

theorem and_ix0 (x y : IVec S_ 1) (h : andi x y ValueIdx.ix0 = 1#1) :
    x ValueIdx.ix0 = 1#1 ∧ y ValueIdx.ix0 = 1#1 := IntOp.andi_eq_one.1 h

theorem finite_of_fn [Cert.Pre_finite_inputs.Facts] (a0 : FVec Ideal S2x2048x2048 .f32) (a1 : FVec Ideal S2x16x2048x128 .f32) (a2 : FVec Ideal S2x16x2048x128 .f32) (a3 : FVec Ideal S2048x2048 .f32) (a4 : FVec Ideal S2048 .f32) (a5 : FVec Ideal S2048x2048 .f32) (a6 : FVec Ideal S2048 .f32) (a7 : FVec Ideal S2048x2048 .f32) (a8 : FVec Ideal S2048 .f32) (a9 : FVec Ideal S2048x2048 .f32) (a10 : FVec Ideal S2048 .f32)
    (h : Cert.Pre_finite_inputs.fn (F := Ideal) a0 a1 a2 a3 a4 a5 a6 a7 a8 a9 a10 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal)) := by
  have h0 := congrFun h ValueIdx.ix0
  dsimp only [fn, fn_part1, fn_part2, fn_part3] at h0
  obtain ⟨h0, e10⟩ := and_ix0 _ _ h0
  obtain ⟨h0, e9⟩ := and_ix0 _ _ h0
  obtain ⟨h0, e8⟩ := and_ix0 _ _ h0
  obtain ⟨h0, e7⟩ := and_ix0 _ _ h0
  obtain ⟨h0, e6⟩ := and_ix0 _ _ h0
  obtain ⟨h0, e5⟩ := and_ix0 _ _ h0
  obtain ⟨h0, e4⟩ := and_ix0 _ _ h0
  obtain ⟨h0, e3⟩ := and_ix0 _ _ h0
  obtain ⟨h0, e2⟩ := and_ix0 _ _ h0
  obtain ⟨e0, e1⟩ := and_ix0 _ _ h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7,
    all_real a8 _ _ _ e8, all_real a9 _ _ _ e9, all_real a10 _ _ _ e10⟩

end Cert.Finite

end
-- ==== Proof.lean ====
import proofs.«418154_j20864951124059_3_alg».proof.Defs
import proofs.«418154_j20864951124059_3_alg».proof.Proof.Gen.Kernel
import proofs.«418154_j20864951124059_3_alg».proof.Proof.Gen.KernelIdeal
import proofs.«418154_j20864951124059_3_alg».proof.Proof.Gen.ReferenceIdeal
import proofs.«418154_j20864951124059_3_alg».proof.Proof.Gen.ReferenceIdeal.Run
import proofs.«418154_j20864951124059_3_alg».proof.Proof.Gen.ReferenceIdeal.Read
import proofs.«418154_j20864951124059_3_alg».proof.Proof.Gen.Pre_finite_inputs
import proofs.«418154_j20864951124059_3_alg».proof.Proof.K.Frame
import proofs.«418154_j20864951124059_3_alg».proof.Proof.KI.Frame
import proofs.«418154_j20864951124059_3_alg».proof.Proof.KI.ChainOut
import proofs.«418154_j20864951124059_3_alg».proof.Proof.Ref
import proofs.«418154_j20864951124059_3_alg».proof.Proof.Finite
import Idealize.ShloMosaic.Adequacy
import Idealize.ShloMosaic.Init

-- The claim: the three frames come from running the program item by item (six host stretches, five regions) with every array's
-- contents known at each boundary; the ideal pass rewrote nothing; and both programs end at the specification's three arrays:
-- the reference by reading its operations at an index, the kernel because its four chunk updates of (maximum, sum, weighted sum)
-- compose to the whole-row softmax, which needs every score real, hence the finite inputs

noncomputable section

namespace Cert.Proof

open Idealize.ShloMosaic Idealize.SL.Sem

theorem frame_k : Cert.frame_Kernel := fun m ρ _ => Cert.Kernel.Hand.frameH m ρ

theorem frame_ki : Cert.frame_KernelIdeal := fun m ρ _ => Cert.KernelIdeal.Hand.frameH m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

open Cert.KernelIdeal.Hand Cert.KernelIdeal.HandV in

theorem algebraic : Cert.algebraic_KernelIdeal_ReferenceIdeal := by
  intro m ρ m' ρ' hpre hagree
  refine ⟨fun c => Cert.Spec.outArr (arg0 m c) (arg1 m c) (arg2 m c) (arg3 m c) (arg4 m c) (arg5 m c) (arg6 m c) (arg7 m c) (arg8 m c) (arg9 m c) (arg10 m c),
    fun c => Cert.Spec.cacheArr (arg1 m c) (arg0 m c) (arg5 m c) (arg6 m c),
    fun c => Cert.Spec.cacheArr (arg2 m c) (arg0 m c) (arg7 m c) (arg8 m c), ?_, ?_⟩
  ·

    refine (θ_run Cert.KernelIdeal.defs _ _).mono (fun r h c => ?_) (run_allH m ρ)
    exact ⟨(h c _ (mem_ucH Cert.KernelIdeal.main_v21 (by decide))).trans (res_out m c (Cert.Finite.finite_of_fn _ _ _ _ _ _ _ _ _ _ _ (hpre c))),
      (h c _ (mem_ucH Cert.KernelIdeal.main_v16 (by decide))).trans (res_k m c),
      (h c _ (mem_ucH Cert.KernelIdeal.main_v17 (by decide))).trans (res_v m c),
      kept_all m r.2 c (h c)⟩
  ·

    refine (θ_run Cert.ReferenceIdeal.defs _ _).mono (fun r h c => ?_) (Cert.ReferenceIdeal.Value.run (F := Ideal) m' ρ')
    obtain ⟨e0, e1, e2, e3, e4, e5, e6, e7, e8, e9, e10⟩ := hagree c
    refine ⟨(h c).1.trans ((Cert.ReferenceIdeal.Read.val_main_v40_eq m' c).trans ?_),
      (h c).2.1.trans ((Cert.ReferenceIdeal.Read.val_main_v12_eq _ _ _ _).trans ?_),
      (h c).2.2.1.trans ((Cert.ReferenceIdeal.Read.val_main_v19_eq _ _ _ _).trans ?_), (h c).2.2.2⟩
    · rw [e0, e1, e2, e3, e4, e5, e6, e7, e8, e9, e10]; exact Cert.RefSpec.ref_v40 _ _ _ _ _ _ _ _ _ _ _
    · rw [e0, e1, e5, e6]; exact Cert.RefSpec.ref_v12 _ _ _ _
    · rw [e0, e2, e7, e8]; exact Cert.RefSpec.ref_v19 _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
